-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v258) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S256 : Shape := ⟨1, ![256]⟩
abbrev S4x256x64 : Shape := ⟨3, ![4, 256, 64]⟩
abbrev S256x512 : Shape := ⟨2, ![256, 512]⟩
abbrev S512 : Shape := ⟨1, ![512]⟩
abbrev S512x256 : Shape := ⟨2, ![512, 256]⟩
abbrev S512x8 : Shape := ⟨2, ![512, 8]⟩
abbrev S5x256x64 : Shape := ⟨3, ![5, 256, 64]⟩
abbrev S320x512 : Shape := ⟨2, ![320, 512]⟩
abbrev S6x256x64 : Shape := ⟨3, ![6, 256, 64]⟩
abbrev S384x512 : Shape := ⟨2, ![384, 512]⟩
abbrev S_ : Shape := ⟨0, ![]⟩

class Facts : Prop where
  bcast_S_S4x256x64 : S_.BroadcastsInDim S4x256x64 (![] : Fin 0 → Fin S4x256x64.rank)
  reducesTo_S4x256x64_S_d0_1_2 : S4x256x64.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S512x8 : S_.BroadcastsInDim S512x8 (![] : Fin 0 → Fin S512x8.rank)
  reducesTo_S512x8_S_d0_1 : S512x8.ReducesTo [0, 1] S_
  bcast_S_S5x256x64 : S_.BroadcastsInDim S5x256x64 (![] : Fin 0 → Fin S5x256x64.rank)
  reducesTo_S5x256x64_S_d0_1_2 : S5x256x64.ReducesTo [0, 1, 2] S_
  bcast_S_S320x512 : S_.BroadcastsInDim S320x512 (![] : Fin 0 → Fin S320x512.rank)
  reducesTo_S320x512_S_d0_1 : S320x512.ReducesTo [0, 1] S_
  bcast_S_S6x256x64 : S_.BroadcastsInDim S6x256x64 (![] : Fin 0 → Fin S6x256x64.rank)
  reducesTo_S6x256x64_S_d0_1_2 : S6x256x64.ReducesTo [0, 1, 2] S_
  bcast_S_S384x512 : S_.BroadcastsInDim S384x512 (![] : Fin 0 → Fin S384x512.rank)
  reducesTo_S384x512_S_d0_1 : S384x512.ReducesTo [0, 1] S_
  bcast_S_S65536 : S_.BroadcastsInDim S65536 (![] : Fin 0 → Fin S65536.rank)
  reducesTo_S65536_S_d0 : S65536.ReducesTo [0] S_

variable [Facts]

def fn_part10 {F : FTy → Type} [FloatOps F] (main_v164 : IVec S_ 1) (main_v169 : IVec S65536 1) : IVec S_ 1 :=
  let main_c_68 : IVec S_ 1 := constantI S_ 1 1#1
  let main_v170 : IVec S_ 1 := (fun x v => Host.reduce IntOp.andi x v reducesTo_S65536_S_d0 h_S_) main_v169 main_c_68
  let main_v171 : IVec S_ 1 := andi main_v164 main_v170
  main_v171

def fn_part9 {F : FTy → Type} [FloatOps F] (main_arg6 : IVec S65536 32) (main_arg7 : IVec S65536 32) (main_arg8 : IVec S65536 32) (main_v150 : IVec S_ 1) (main_v152 : IVec S65536 1) : IVec S_ 1 :=
  let main_c_61 : IVec S_ 32 := constantI S_ 32 256#32
  let main_v153 : IVec S65536 32 := broadcastInDim S65536 ![] bcast_S_S65536 main_c_61
  let main_v154 : IVec S65536 1 := cmpi .slt main_arg6 main_v153
  let main_v155 : IVec S65536 1 := andi main_v152 main_v154
  let main_c_62 : IVec S_ 1 := constantI S_ 1 1#1
  let main_v156 : IVec S_ 1 := (fun x v => Host.reduce IntOp.andi x v reducesTo_S65536_S_d0 h_S_) main_v155 main_c_62
  let main_v157 : IVec S_ 1 := andi main_v150 main_v156
  let main_c_63 : IVec S_ 32 := constantI S_ 32 0#32
  let main_v158 : IVec S65536 32 := broadcastInDim S65536 ![] bcast_S_S65536 main_c_63
  let main_v159 : IVec S65536 1 := cmpi .sge main_arg7 main_v158
  let main_c_64 : IVec S_ 32 := constantI S_ 32 256#32
  let main_v160 : IVec S65536 32 := broadcastInDim S65536 ![] bcast_S_S65536 main_c_64
  let main_v161 : IVec S65536 1 := cmpi .slt main_arg7 main_v160
  let main_v162 : IVec S65536 1 := andi main_v159 main_v161
  let main_c_65 : IVec S_ 1 := constantI S_ 1 1#1
  let main_v163 : IVec S_ 1 := (fun x v => Host.reduce IntOp.andi x v reducesTo_S65536_S_d0 h_S_) main_v162 main_c_65
  let main_v164 : IVec S_ 1 := andi main_v157 main_v163
  let main_c_66 : IVec S_ 32 := constantI S_ 32 0#32
  let main_v165 : IVec S65536 32 := broadcastInDim S65536 ![] bcast_S_S65536 main_c_66
  let main_v166 : IVec S65536 1 := cmpi .sge main_arg8 main_v165
  let main_c_67 : IVec S_ 32 := constantI S_ 32 256#32
  let main_v167 : IVec S65536 32 := broadcastInDim S65536 ![] bcast_S_S65536 main_c_67
  let main_v168 : IVec S65536 1 := cmpi .slt main_arg8 main_v167
  let main_v169 : IVec S65536 1 := andi main_v166 main_v168
  fn_part10 (F := F) main_v164 main_v169

def fn_part8 {F : FTy → Type} [FloatOps F] (main_arg4 : IVec S65536 32) (main_arg5 : IVec S65536 32) (main_arg6 : IVec S65536 32) (main_arg7 : IVec S65536 32) (main_arg8 : IVec S65536 32) (main_v129 : IVec S_ 1) (main_v135 : IVec S_ 1) : IVec S_ 1 :=
  let main_v136 : IVec S_ 1 := andi main_v129 main_v135
  let main_c_54 : IVec S_ 32 := constantI S_ 32 0#32
  let main_v137 : IVec S65536 32 := broadcastInDim S65536 ![] bcast_S_S65536 main_c_54
  let main_v138 : IVec S65536 1 := cmpi .sge main_arg4 main_v137
  let main_c_55 : IVec S_ 32 := constantI S_ 32 256#32
  let main_v139 : IVec S65536 32 := broadcastInDim S65536 ![] bcast_S_S65536 main_c_55
  let main_v140 : IVec S65536 1 := cmpi .slt main_arg4 main_v139
  let main_v141 : IVec S65536 1 := andi main_v138 main_v140
  let main_c_56 : IVec S_ 1 := constantI S_ 1 1#1
  let main_v142 : IVec S_ 1 := (fun x v => Host.reduce IntOp.andi x v reducesTo_S65536_S_d0 h_S_) main_v141 main_c_56
  let main_v143 : IVec S_ 1 := andi main_v136 main_v142
  let main_c_57 : IVec S_ 32 := constantI S_ 32 0#32
  let main_v144 : IVec S65536 32 := broadcastInDim S65536 ![] bcast_S_S65536 main_c_57
  let main_v145 : IVec S65536 1 := cmpi .sge main_arg5 main_v144
  let main_c_58 : IVec S_ 32 := constantI S_ 32 256#32
  let main_v146 : IVec S65536 32 := broadcastInDim S65536 ![] bcast_S_S65536 main_c_58
  let main_v147 : IVec S65536 1 := cmpi .slt main_arg5 main_v146
  let main_v148 : IVec S65536 1 := andi main_v145 main_v147
  let main_c_59 : IVec S_ 1 := constantI S_ 1 1#1
  let main_v149 : IVec S_ 1 := (fun x v => Host.reduce IntOp.andi x v reducesTo_S65536_S_d0 h_S_) main_v148 main_c_59
  let main_v150 : IVec S_ 1 := andi main_v143 main_v149
  let main_c_60 : IVec S_ 32 := constantI S_ 32 0#32
  let main_v151 : IVec S65536 32 := broadcastInDim S65536 ![] bcast_S_S65536 main_c_60
  let main_v152 : IVec S65536 1 := cmpi .sge main_arg6 main_v151
  fn_part9 (F := F) main_arg6 main_arg7 main_arg8 main_v150 main_v152

def fn_part7 {F : FTy → Type} [FloatOps F] (main_arg1 : IVec S65536 32) (main_arg2 : IVec S65536 32) (main_arg3 : IVec S65536 32) (main_arg4 : IVec S65536 32) (main_arg5 : IVec S65536 32) (main_arg6 : IVec S65536 32) (main_arg7 : IVec S65536 32) (main_arg8 : IVec S65536 32) (main_v115 : IVec S_ 1) (main_v117 : IVec S65536 1) (main_v118 : IVec S65536 32) : IVec S_ 1 :=
  let main_v119 : IVec S65536 1 := cmpi .slt main_arg1 main_v118
  let main_v120 : IVec S65536 1 := andi main_v117 main_v119
  let main_c_47 : IVec S_ 1 := constantI S_ 1 1#1
  let main_v121 : IVec S_ 1 := (fun x v => Host.reduce IntOp.andi x v reducesTo_S65536_S_d0 h_S_) main_v120 main_c_47
  let main_v122 : IVec S_ 1 := andi main_v115 main_v121
  let main_c_48 : IVec S_ 32 := constantI S_ 32 0#32
  let main_v123 : IVec S65536 32 := broadcastInDim S65536 ![] bcast_S_S65536 main_c_48
  let main_v124 : IVec S65536 1 := cmpi .sge main_arg2 main_v123
  let main_c_49 : IVec S_ 32 := constantI S_ 32 256#32
  let main_v125 : IVec S65536 32 := broadcastInDim S65536 ![] bcast_S_S65536 main_c_49
  let main_v126 : IVec S65536 1 := cmpi .slt main_arg2 main_v125
  let main_v127 : IVec S65536 1 := andi main_v124 main_v126
  let main_c_50 : IVec S_ 1 := constantI S_ 1 1#1
  let main_v128 : IVec S_ 1 := (fun x v => Host.reduce IntOp.andi x v reducesTo_S65536_S_d0 h_S_) main_v127 main_c_50
  let main_v129 : IVec S_ 1 := andi main_v122 main_v128
  let main_c_51 : IVec S_ 32 := constantI S_ 32 0#32
  let main_v130 : IVec S65536 32 := broadcastInDim S65536 ![] bcast_S_S65536 main_c_51
  let main_v131 : IVec S65536 1 := cmpi .sge main_arg3 main_v130
  let main_c_52 : IVec S_ 32 := constantI S_ 32 256#32
  let main_v132 : IVec S65536 32 := broadcastInDim S65536 ![] bcast_S_S65536 main_c_52
  let main_v133 : IVec S65536 1 := cmpi .slt main_arg3 main_v132
  let main_v134 : IVec S65536 1 := andi main_v131 main_v133
  let main_c_53 : IVec S_ 1 := constantI S_ 1 1#1
  let main_v135 : IVec S_ 1 := (fun x v => Host.reduce IntOp.andi x v reducesTo_S65536_S_d0 h_S_) main_v134 main_c_53
  fn_part8 (F := F) main_arg4 main_arg5 main_arg6 main_arg7 main_arg8 main_v129 main_v135

def fn_part6 {F : FTy → Type} [FloatOps F] (main_arg0 : IVec S65536 32) (main_arg1 : IVec S65536 32) (main_arg2 : IVec S65536 32) (main_arg3 : IVec S65536 32) (main_arg4 : IVec S65536 32) (main_arg5 : IVec S65536 32) (main_arg6 : IVec S65536 32) (main_arg7 : IVec S65536 32) (main_arg8 : IVec S65536 32) (main_arg31 : FVec F S512x256 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512x256 .f32 := Host.absf main_arg31
  let main_cst_40 : FVec F S_ .f32 := constant S_ .f32 0x7F800000#32
  let main_v105 : FVec F S512x256 .f32 := broadcastInDim S512x256 ![] bcast_S_S512x256 main_cst_40
  let main_v106 : IVec S512x256 1 := cmpf .olt main_v104 main_v105
  let main_c_41 : IVec S_ 1 := constantI S_ 1 1#1
  let main_v107 : IVec S_ 1 := (fun x v => Host.reduce IntOp.andi x v reducesTo_S512x256_S_d0_1 h_S_) main_v106 main_c_41
  let main_v108 : IVec S_ 1 := andi main_v103 main_v107
  let main_c_42 : IVec S_ 32 := constantI S_ 32 0#32
  let main_v109 : IVec S65536 32 := broadcastInDim S65536 ![] bcast_S_S65536 main_c_42
  let main_v110 : IVec S65536 1 := cmpi .sge main_arg0 main_v109
  let main_c_43 : IVec S_ 32 := constantI S_ 32 256#32
  let main_v111 : IVec S65536 32 := broadcastInDim S65536 ![] bcast_S_S65536 main_c_43
  let main_v112 : IVec S65536 1 := cmpi .slt main_arg0 main_v111
  let main_v113 : IVec S65536 1 := andi main_v110 main_v112
  let main_c_44 : IVec S_ 1 := constantI S_ 1 1#1
  let main_v114 : IVec S_ 1 := (fun x v => Host.reduce IntOp.andi x v reducesTo_S65536_S_d0 h_S_) main_v113 main_c_44
  let main_v115 : IVec S_ 1 := andi main_v108 main_v114
  let main_c_45 : IVec S_ 32 := constantI S_ 32 0#32
  let main_v116 : IVec S65536 32 := broadcastInDim S65536 ![] bcast_S_S65536 main_c_45
  let main_v117 : IVec S65536 1 := cmpi .sge main_arg1 main_v116
  let main_c_46 : IVec S_ 32 := constantI S_ 32 256#32
  let main_v118 : IVec S65536 32 := broadcastInDim S65536 ![] bcast_S_S65536 main_c_46
  fn_part7 (F := F) main_arg1 main_arg2 main_arg3 main_arg4 main_arg5 main_arg6 main_arg7 main_arg8 main_v115 main_v117 main_v118

def fn_part5 {F : FTy → Type} [FloatOps F] (main_arg0 : IVec S65536 32) (main_arg1 : IVec S65536 32) (main_arg2 : IVec S65536 32) (main_arg3 : IVec S65536 32) (main_arg4 : IVec S65536 32) (main_arg5 : IVec S65536 32) (main_arg6 : IVec S65536 32) (main_arg7 : IVec S65536 32) (main_arg8 : IVec S65536 32) (main_arg28 : FVec F S6x256x64 .f32) (main_arg29 : FVec F S384x512 .f32) (main_arg30 : FVec F S512 .f32) (main_arg31 : FVec F S512x256 .f32) (main_v83 : IVec S_ 1) (main_v84 : FVec F S512x256 .f32) (main_cst_32 : FVec F S_ .f32) : IVec S_ 1 :=
  let main_v85 : FVec F S512x256 .f32 := broadcastInDim S512x256 ![] bcast_S_S512x256 main_cst_32
  let main_v86 : IVec S512x256 1 := cmpf .olt main_v84 main_v85
  let main_c_33 : IVec S_ 1 := constantI S_ 1 1#1
  let main_v87 : IVec S_ 1 := (fun x v => Host.reduce IntOp.andi x v reducesTo_S512x256_S_d0_1 h_S_) main_v86 main_c_33
  let main_v88 : IVec S_ 1 := andi main_v83 main_v87
  let main_v89 : FVec F S6x256x64 .f32 := Host.absf main_arg28
  let main_cst_34 : FVec F S_ .f32 := constant S_ .f32 0x7F800000#32
  let main_v90 : FVec F S6x256x64 .f32 := broadcastInDim S6x256x64 ![] bcast_S_S6x256x64 main_cst_34
  let main_v91 : IVec S6x256x64 1 := cmpf .olt main_v89 main_v90
  let main_c_35 : IVec S_ 1 := constantI S_ 1 1#1
  let main_v92 : IVec S_ 1 := (fun x v => Host.reduce IntOp.andi x v reducesTo_S6x256x64_S_d0_1_2 h_S_) main_v91 main_c_35
  let main_v93 : IVec S_ 1 := andi main_v88 main_v92
  let main_v94 : FVec F S384x512 .f32 := Host.absf main_arg29
  let main_cst_36 : FVec F S_ .f32 := constant S_ .f32 0x7F800000#32
  let main_v95 : FVec F S384x512 .f32 := broadcastInDim S384x512 ![] bcast_S_S384x512 main_cst_36
  let main_v96 : IVec S384x512 1 := cmpf .olt main_v94 main_v95
  let main_c_37 : IVec S_ 1 := constantI S_ 1 1#1
  let main_v97 : IVec S_ 1 := (fun x v => Host.reduce IntOp.andi x v reducesTo_S384x512_S_d0_1 h_S_) main_v96 main_c_37
  let main_v98 : IVec S_ 1 := andi main_v93 main_v97
  let main_v99 : FVec F S512 .f32 := Host.absf main_arg30
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg0 main_arg1 main_arg2 main_arg3 main_arg4 main_arg5 main_arg6 main_arg7 main_arg8 main_arg31 main_v98 main_v101 main_c_39

def fn_part4 {F : FTy → Type} [FloatOps F] (main_arg0 : IVec S65536 32) (main_arg1 : IVec S65536 32) (main_arg2 : IVec S65536 32) (main_arg3 : IVec S65536 32) (main_arg4 : IVec S65536 32) (main_arg5 : IVec S65536 32) (main_arg6 : IVec S65536 32) (main_arg7 : IVec S65536 32) (main_arg8 : IVec S65536 32) (main_arg24 : FVec F S6x256x64 .f32) (main_arg25 : FVec F S384x512 .f32) (main_arg26 : FVec F S512 .f32) (main_arg27 : FVec F S512x256 .f32) (main_arg28 : FVec F S6x256x64 .f32) (main_arg29 : FVec F S384x512 .f32) (main_arg30 : FVec F S512 .f32) (main_arg31 : FVec F S512x256 .f32) (main_v63 : IVec S_ 1) (main_v67 : IVec S_ 1) : IVec S_ 1 :=
  let main_v68 : IVec S_ 1 := andi main_v63 main_v67
  let main_v69 : FVec F S6x256x64 .f32 := Host.absf main_arg24
  let main_cst_26 : FVec F S_ .f32 := constant S_ .f32 0x7F800000#32
  let main_v70 : FVec F S6x256x64 .f32 := broadcastInDim S6x256x64 ![] bcast_S_S6x256x64 main_cst_26
  let main_v71 : IVec S6x256x64 1 := cmpf .olt main_v69 main_v70
  let main_c_27 : IVec S_ 1 := constantI S_ 1 1#1
  let main_v72 : IVec S_ 1 := (fun x v => Host.reduce IntOp.andi x v reducesTo_S6x256x64_S_d0_1_2 h_S_) main_v71 main_c_27
  let main_v73 : IVec S_ 1 := andi main_v68 main_v72
  let main_v74 : FVec F S384x512 .f32 := Host.absf main_arg25
  let main_cst_28 : FVec F S_ .f32 := constant S_ .f32 0x7F800000#32
  let main_v75 : FVec F S384x512 .f32 := broadcastInDim S384x512 ![] bcast_S_S384x512 main_cst_28
  let main_v76 : IVec S384x512 1 := cmpf .olt main_v74 main_v75
  let main_c_29 : IVec S_ 1 := constantI S_ 1 1#1
  let main_v77 : IVec S_ 1 := (fun x v => Host.reduce IntOp.andi x v reducesTo_S384x512_S_d0_1 h_S_) main_v76 main_c_29
  let main_v78 : IVec S_ 1 := andi main_v73 main_v77
  let main_v79 : FVec F S512 .f32 := Host.absf main_arg26
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x256 .f32 := Host.absf main_arg27
  let main_cst_32 : FVec F S_ .f32 := constant S_ .f32 0x7F800000#32
  fn_part5 (F := F) main_arg0 main_arg1 main_arg2 main_arg3 main_arg4 main_arg5 main_arg6 main_arg7 main_arg8 main_arg28 main_arg29 main_arg30 main_arg31 main_v83 main_v84 main_cst_32

def fn_part3 {F : FTy → Type} [FloatOps F] (main_arg0 : IVec S65536 32) (main_arg1 : IVec S65536 32) (main_arg2 : IVec S65536 32) (main_arg3 : IVec S65536 32) (main_arg4 : IVec S65536 32) (main_arg5 : IVec S65536 32) (main_arg6 : IVec S65536 32) (main_arg7 : IVec S65536 32) (main_arg8 : IVec S65536 32) (main_arg21 : FVec F S320x512 .f32) (main_arg22 : FVec F S512 .f32) (main_arg23 : FVec F S512x256 .f32) (main_arg24 : FVec F S6x256x64 .f32) (main_arg25 : FVec F S384x512 .f32) (main_arg26 : FVec F S512 .f32) (main_arg27 : FVec F S512x256 .f32) (main_arg28 : FVec F S6x256x64 .f32) (main_arg29 : FVec F S384x512 .f32) (main_arg30 : FVec F S512 .f32) (main_arg31 : FVec F S512x256 .f32) (main_v48 : IVec S_ 1) (main_v49 : FVec F S5x256x64 .f32) (main_v50 : FVec F S5x256x64 .f32) : IVec S_ 1 :=
  let main_v51 : IVec S5x256x64 1 := cmpf .olt main_v49 main_v50
  let main_c_19 : IVec S_ 1 := constantI S_ 1 1#1
  let main_v52 : IVec S_ 1 := (fun x v => Host.reduce IntOp.andi x v reducesTo_S5x256x64_S_d0_1_2 h_S_) main_v51 main_c_19
  let main_v53 : IVec S_ 1 := andi main_v48 main_v52
  let main_v54 : FVec F S320x512 .f32 := Host.absf main_arg21
  let main_cst_20 : FVec F S_ .f32 := constant S_ .f32 0x7F800000#32
  let main_v55 : FVec F S320x512 .f32 := broadcastInDim S320x512 ![] bcast_S_S320x512 main_cst_20
  let main_v56 : IVec S320x512 1 := cmpf .olt main_v54 main_v55
  let main_c_21 : IVec S_ 1 := constantI S_ 1 1#1
  let main_v57 : IVec S_ 1 := (fun x v => Host.reduce IntOp.andi x v reducesTo_S320x512_S_d0_1 h_S_) main_v56 main_c_21
  let main_v58 : IVec S_ 1 := andi main_v53 main_v57
  let main_v59 : FVec F S512 .f32 := Host.absf main_arg22
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x256 .f32 := Host.absf main_arg23
  let main_cst_24 : FVec F S_ .f32 := constant S_ .f32 0x7F800000#32
  let main_v65 : FVec F S512x256 .f32 := broadcastInDim S512x256 ![] bcast_S_S512x256 main_cst_24
  let main_v66 : IVec S512x256 1 := cmpf .olt main_v64 main_v65
  let main_c_25 : IVec S_ 1 := constantI S_ 1 1#1
  let main_v67 : IVec S_ 1 := (fun x v => Host.reduce IntOp.andi x v reducesTo_S512x256_S_d0_1 h_S_) main_v66 main_c_25
  fn_part4 (F := F) main_arg0 main_arg1 main_arg2 main_arg3 main_arg4 main_arg5 main_arg6 main_arg7 main_arg8 main_arg24 main_arg25 main_arg26 main_arg27 main_arg28 main_arg29 main_arg30 main_arg31 main_v63 main_v67

def fn_part2 {F : FTy → Type} [FloatOps F] (main_arg0 : IVec S65536 32) (main_arg1 : IVec S65536 32) (main_arg2 : IVec S65536 32) (main_arg3 : IVec S65536 32) (main_arg4 : IVec S65536 32) (main_arg5 : IVec S65536 32) (main_arg6 : IVec S65536 32) (main_arg7 : IVec S65536 32) (main_arg8 : IVec S65536 32) (main_arg17 : FVec F S512 .f32) (main_arg18 : FVec F S512x256 .f32) (main_arg19 : FVec F S512x8 .f32) (main_arg20 : FVec F S5x256x64 .f32) (main_arg21 : FVec F S320x512 .f32) (main_arg22 : FVec F S512 .f32) (main_arg23 : FVec F S512x256 .f32) (main_arg24 : FVec F S6x256x64 .f32) (main_arg25 : FVec F S384x512 .f32) (main_arg26 : FVec F S512 .f32) (main_arg27 : FVec F S512x256 .f32) (main_arg28 : FVec F S6x256x64 .f32) (main_arg29 : FVec F S384x512 .f32) (main_arg30 : FVec F S512 .f32) (main_arg31 : FVec F S512x256 .f32) (main_v33 : IVec S_ 1) : IVec S_ 1 :=
  let main_v34 : FVec F S512 .f32 := Host.absf main_arg17
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x256 .f32 := Host.absf main_arg18
  let main_cst_14 : FVec F S_ .f32 := constant S_ .f32 0x7F800000#32
  let main_v40 : FVec F S512x256 .f32 := broadcastInDim S512x256 ![] bcast_S_S512x256 main_cst_14
  let main_v41 : IVec S512x256 1 := cmpf .olt main_v39 main_v40
  let main_c_15 : IVec S_ 1 := constantI S_ 1 1#1
  let main_v42 : IVec S_ 1 := (fun x v => Host.reduce IntOp.andi x v reducesTo_S512x256_S_d0_1 h_S_) main_v41 main_c_15
  let main_v43 : IVec S_ 1 := andi main_v38 main_v42
  let main_v44 : FVec F S512x8 .f32 := Host.absf main_arg19
  let main_cst_16 : FVec F S_ .f32 := constant S_ .f32 0x7F800000#32
  let main_v45 : FVec F S512x8 .f32 := broadcastInDim S512x8 ![] bcast_S_S512x8 main_cst_16
  let main_v46 : IVec S512x8 1 := cmpf .olt main_v44 main_v45
  let main_c_17 : IVec S_ 1 := constantI S_ 1 1#1
  let main_v47 : IVec S_ 1 := (fun x v => Host.reduce IntOp.andi x v reducesTo_S512x8_S_d0_1 h_S_) main_v46 main_c_17
  let main_v48 : IVec S_ 1 := andi main_v43 main_v47
  let main_v49 : FVec F S5x256x64 .f32 := Host.absf main_arg20
  let main_cst_18 : FVec F S_ .f32 := constant S_ .f32 0x7F800000#32
  let main_v50 : FVec F S5x256x64 .f32 := broadcastInDim S5x256x64 ![] bcast_S_S5x256x64 main_cst_18
  fn_part3 (F := F) main_arg0 main_arg1 main_arg2 main_arg3 main_arg4 main_arg5 main_arg6 main_arg7 main_arg8 main_arg21 main_arg22 main_arg23 main_arg24 main_arg25 main_arg26 main_arg27 main_arg28 main_arg29 main_arg30 main_arg31 main_v48 main_v49 main_v50

def fn_part1 {F : FTy → Type} [FloatOps F] (main_arg0 : IVec S65536 32) (main_arg1 : IVec S65536 32) (main_arg2 : IVec S65536 32) (main_arg3 : IVec S65536 32) (main_arg4 : IVec S65536 32) (main_arg5 : IVec S65536 32) (main_arg6 : IVec S65536 32) (main_arg7 : IVec S65536 32) (main_arg8 : IVec S65536 32) (main_arg14 : FVec F S512x8 .f32) (main_arg15 : FVec F S4x256x64 .f32) (main_arg16 : FVec F S256x512 .f32) (main_arg17 : FVec F S512 .f32) (main_arg18 : FVec F S512x256 .f32) (main_arg19 : FVec F S512x8 .f32) (main_arg20 : FVec F S5x256x64 .f32) (main_arg21 : FVec F S320x512 .f32) (main_arg22 : FVec F S512 .f32) (main_arg23 : FVec F S512x256 .f32) (main_arg24 : FVec F S6x256x64 .f32) (main_arg25 : FVec F S384x512 .f32) (main_arg26 : FVec F S512 .f32) (main_arg27 : FVec F S512x256 .f32) (main_arg28 : FVec F S6x256x64 .f32) (main_arg29 : FVec F S384x512 .f32) (main_arg30 : FVec F S512 .f32) (main_arg31 : FVec F S512x256 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512x8 .f32 := Host.absf main_arg14
  let main_cst_6 : FVec F S_ .f32 := constant S_ .f32 0x7F800000#32
  let main_v20 : FVec F S512x8 .f32 := broadcastInDim S512x8 ![] bcast_S_S512x8 main_cst_6
  let main_v21 : IVec S512x8 1 := cmpf .olt main_v19 main_v20
  let main_c_7 : IVec S_ 1 := constantI S_ 1 1#1
  let main_v22 : IVec S_ 1 := (fun x v => Host.reduce IntOp.andi x v reducesTo_S512x8_S_d0_1 h_S_) main_v21 main_c_7
  let main_v23 : IVec S_ 1 := andi main_v18 main_v22
  let main_v24 : FVec F S4x256x64 .f32 := Host.absf main_arg15
  let main_cst_8 : FVec F S_ .f32 := constant S_ .f32 0x7F800000#32
  let main_v25 : FVec F S4x256x64 .f32 := broadcastInDim S4x256x64 ![] bcast_S_S4x256x64 main_cst_8
  let main_v26 : IVec S4x256x64 1 := cmpf .olt main_v24 main_v25
  let main_c_9 : IVec S_ 1 := constantI S_ 1 1#1
  let main_v27 : IVec S_ 1 := (fun x v => Host.reduce IntOp.andi x v reducesTo_S4x256x64_S_d0_1_2 h_S_) main_v26 main_c_9
  let main_v28 : IVec S_ 1 := andi main_v23 main_v27
  let main_v29 : FVec F S256x512 .f32 := Host.absf main_arg16
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg0 main_arg1 main_arg2 main_arg3 main_arg4 main_arg5 main_arg6 main_arg7 main_arg8 main_arg17 main_arg18 main_arg19 main_arg20 main_arg21 main_arg22 main_arg23 main_arg24 main_arg25 main_arg26 main_arg27 main_arg28 main_arg29 main_arg30 main_arg31 main_v33

def fn {F : FTy → Type} [FloatOps F] (main_arg0 : IVec S65536 32) (main_arg1 : IVec S65536 32) (main_arg2 : IVec S65536 32) (main_arg3 : IVec S65536 32) (main_arg4 : IVec S65536 32) (main_arg5 : IVec S65536 32) (main_arg6 : IVec S65536 32) (main_arg7 : IVec S65536 32) (main_arg8 : IVec S65536 32) (main_arg9 : IVec S256 32) (main_arg10 : FVec F S4x256x64 .f32) (main_arg11 : FVec F S256x512 .f32) (main_arg12 : FVec F S512 .f32) (main_arg13 : FVec F S512x256 .f32) (main_arg14 : FVec F S512x8 .f32) (main_arg15 : FVec F S4x256x64 .f32) (main_arg16 : FVec F S256x512 .f32) (main_arg17 : FVec F S512 .f32) (main_arg18 : FVec F S512x256 .f32) (main_arg19 : FVec F S512x8 .f32) (main_arg20 : FVec F S5x256x64 .f32) (main_arg21 : FVec F S320x512 .f32) (main_arg22 : FVec F S512 .f32) (main_arg23 : FVec F S512x256 .f32) (main_arg24 : FVec F S6x256x64 .f32) (main_arg25 : FVec F S384x512 .f32) (main_arg26 : FVec F S512 .f32) (main_arg27 : FVec F S512x256 .f32) (main_arg28 : FVec F S6x256x64 .f32) (main_arg29 : FVec F S384x512 .f32) (main_arg30 : FVec F S512 .f32) (main_arg31 : FVec F S512x256 .f32) : IVec S_ 1 :=
  let main_v0 : FVec F S4x256x64 .f32 := Host.absf main_arg10
  let main_cst : FVec F S_ .f32 := constant S_ .f32 0x7F800000#32
  let main_v1 : FVec F S4x256x64 .f32 := broadcastInDim S4x256x64 ![] bcast_S_S4x256x64 main_cst
  let main_v2 : IVec S4x256x64 1 := cmpf .olt main_v0 main_v1
  let main_c : IVec S_ 1 := constantI S_ 1 1#1
  let main_v3 : IVec S_ 1 := (fun x v => Host.reduce IntOp.andi x v reducesTo_S4x256x64_S_d0_1_2 h_S_) main_v2 main_c
  let main_v4 : FVec F S256x512 .f32 := Host.absf main_arg11
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg12
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg13
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg0 main_arg1 main_arg2 main_arg3 main_arg4 main_arg5 main_arg6 main_arg7 main_arg8 main_arg14 main_arg15 main_arg16 main_arg17 main_arg18 main_arg19 main_arg20 main_arg21 main_arg22 main_arg23 main_arg24 main_arg25 main_arg26 main_arg27 main_arg28 main_arg29 main_arg30 main_arg31 main_v13 main_v16
-- ==== Kernel.lean ====
abbrev S65536 : Shape := ⟨1, ![65536]⟩
abbrev S256 : Shape := ⟨1, ![256]⟩
abbrev S4x256x64 : Shape := ⟨3, ![4, 256, 64]⟩
abbrev S256x512 : Shape := ⟨2, ![256, 512]⟩
abbrev S512 : Shape := ⟨1, ![512]⟩
abbrev S512x256 : Shape := ⟨2, ![512, 256]⟩
abbrev S512x8 : Shape := ⟨2, ![512, 8]⟩
abbrev S5x256x64 : Shape := ⟨3, ![5, 256, 64]⟩
abbrev S320x512 : Shape := ⟨2, ![320, 512]⟩
abbrev S6x256x64 : Shape := ⟨3, ![6, 256, 64]⟩
abbrev S384x512 : Shape := ⟨2, ![384, 512]⟩
abbrev S65536x1 : Shape := ⟨2, ![65536, 1]⟩
abbrev S65536x9 : Shape := ⟨2, ![65536, 9]⟩
abbrev S5 : Shape := ⟨1, ![5]⟩
abbrev S256x1 : Shape := ⟨2, ![256, 1]⟩
abbrev S1x5 : Shape := ⟨2, ![1, 5]⟩
abbrev S256x5 : Shape := ⟨2, ![256, 5]⟩
abbrev S64x512 : Shape := ⟨2, ![64, 512]⟩
abbrev S1x256x64 : Shape := ⟨3, ![1, 256, 64]⟩
abbrev S256x64 : Shape := ⟨2, ![256, 64]⟩
abbrev S1x256x512 : Shape := ⟨3, ![1, 256, 512]⟩
abbrev S4x256x512 : Shape := ⟨3, ![4, 256, 512]⟩
abbrev S5x256x512 : Shape := ⟨3, ![5, 256, 512]⟩
abbrev S6x256x512 : Shape := ⟨3, ![6, 256, 512]⟩
abbrev S512x264 : Shape := ⟨2, ![512, 264]⟩
abbrev S65536x1296 : Shape := ⟨2, ![65536, 1296]⟩
abbrev S1024x9 : Shape := ⟨2, ![1024, 9]⟩
abbrev S1024x1296 : Shape := ⟨2, ![1024, 1296]⟩
abbrev S1024x256 : Shape := ⟨2, ![1024, 256]⟩
abbrev S1024x1 : Shape := ⟨2, ![1024, 1]⟩
abbrev S1024x512 : Shape := ⟨2, ![1024, 512]⟩
abbrev S1x512 : Shape := ⟨2, ![1, 512]⟩
abbrev S1024x264 : Shape := ⟨2, ![1024, 264]⟩

abbrev nBuf : Space → Nat
  | .hbm => 212
  | .vmem => 20
  | .smem => 0
  | _ => 0

abbrev hbmTy0_0 (i : Nat) : BufTy := match i % 128 with
  | 0 => ⟨S65536, .i32⟩
  | 1 => ⟨S65536, .i32⟩
  | 2 => ⟨S65536, .i32⟩
  | 3 => ⟨S65536, .i32⟩
  | 4 => ⟨S65536, .i32⟩
  | 5 => ⟨S65536, .i32⟩
  | 6 => ⟨S65536, .i32⟩
  | 7 => ⟨S65536, .i32⟩
  | 8 => ⟨S65536, .i32⟩
  | 9 => ⟨S256, .i32⟩
  | 10 => ⟨S4x256x64, .f32⟩
  | 11 => ⟨S256x512, .f32⟩
  | 12 => ⟨S512, .f32⟩
  | 13 => ⟨S512x256, .f32⟩
  | 14 => ⟨S512x8, .f32⟩
  | 15 => ⟨S4x256x64, .f32⟩
  | 16 => ⟨S256x512, .f32⟩
  | 17 => ⟨S512, .f32⟩
  | 18 => ⟨S512x256, .f32⟩
  | 19 => ⟨S512x8, .f32⟩
  | 20 => ⟨S5x256x64, .f32⟩
  | 21 => ⟨S320x512, .f32⟩
  | 22 => ⟨S512, .f32⟩
  | 23 => ⟨S512x256, .f32⟩
  | 24 => ⟨S6x256x64, .f32⟩
  | 25 => ⟨S384x512, .f32⟩
  | 26 => ⟨S512, .f32⟩
  | 27 => ⟨S512x256, .f32⟩
  | 28 => ⟨S6x256x64, .f32⟩
  | 29 => ⟨S384x512, .f32⟩
  | 30 => ⟨S512, .f32⟩
  | 31 => ⟨S512x256, .f32⟩
  | 32 => ⟨S65536x1, .i32⟩
  | 33 => ⟨S65536x1, .i32⟩
  | 34 => ⟨S65536x1, .i32⟩
  | 35 => ⟨S65536x1, .i32⟩
  | 36 => ⟨S65536x1, .i32⟩
  | 37 => ⟨S65536x1, .i32⟩
  | 38 => ⟨S65536x1, .i32⟩
  | 39 => ⟨S65536x1, .i32⟩
  | 40 => ⟨S65536x1, .i32⟩
  | 41 => ⟨S65536x9, .i32⟩
  | 42 => ⟨S5, .i32⟩
  | 43 => ⟨S256x1, .i32⟩
  | 44 => ⟨S1x5, .i32⟩
  | 45 => ⟨S256x5, .i32⟩
  | 46 => ⟨S256x5, .i32⟩
  | 47 => ⟨S256x5, .i1⟩
  | 48 => ⟨S256x5, .bf16⟩
  | 49 => ⟨S64x512, .f32⟩
  | 50 => ⟨S1x256x64, .f32⟩
  | 51 => ⟨S256x64, .f32⟩
  | 52 => ⟨S256x512, .f32⟩
  | 53 => ⟨S256x512, .bf16⟩
  | 54 => ⟨S64x512, .f32⟩
  | 55 => ⟨S1x256x64, .f32⟩
  | 56 => ⟨S256x64, .f32⟩
  | 57 => ⟨S256x512, .f32⟩
  | 58 => ⟨S256x512, .bf16⟩
  | 59 => ⟨S64x512, .f32⟩
  | 60 => ⟨S1x256x64, .f32⟩
  | 61 => ⟨S256x64, .f32⟩
  | 62 => ⟨S256x512, .f32⟩
  | 63 => ⟨S256x512, .bf16⟩
  | 64 => ⟨S64x512, .f32⟩
  | 65 => ⟨S1x256x64, .f32⟩
  | 66 => ⟨S256x64, .f32⟩
  | 67 => ⟨S256x512, .f32⟩
  | 68 => ⟨S256x512, .bf16⟩
  | 69 => ⟨S1x256x512, .bf16⟩
  | 70 => ⟨S1x256x512, .bf16⟩
  | 71 => ⟨S1x256x512, .bf16⟩
  | 72 => ⟨S1x256x512, .bf16⟩
  | 73 => ⟨S4x256x512, .bf16⟩
  | 74 => ⟨S64x512, .f32⟩
  | 75 => ⟨S1x256x64, .f32⟩
  | 76 => ⟨S256x64, .f32⟩
  | 77 => ⟨S256x512, .f32⟩
  | 78 => ⟨S256x512, .bf16⟩
  | 79 => ⟨S64x512, .f32⟩
  | 80 => ⟨S1x256x64, .f32⟩
  | 81 => ⟨S256x64, .f32⟩
  | 82 => ⟨S256x512, .f32⟩
  | 83 => ⟨S256x512, .bf16⟩
  | 84 => ⟨S64x512, .f32⟩
  | 85 => ⟨S1x256x64, .f32⟩
  | 86 => ⟨S256x64, .f32⟩
  | 87 => ⟨S256x512, .f32⟩
  | 88 => ⟨S256x512, .bf16⟩
  | 89 => ⟨S64x512, .f32⟩
  | 90 => ⟨S1x256x64, .f32⟩
  | 91 => ⟨S256x64, .f32⟩
  | 92 => ⟨S256x512, .f32⟩
  | 93 => ⟨S256x512, .bf16⟩
  | 94 => ⟨S1x256x512, .bf16⟩
  | 95 => ⟨S1x256x512, .bf16⟩
  | 96 => ⟨S1x256x512, .bf16⟩
  | 97 => ⟨S1x256x512, .bf16⟩
  | 98 => ⟨S4x256x512, .bf16⟩
  | 99 => ⟨S64x512, .f32⟩
  | 100 => ⟨S1x256x64, .f32⟩
  | 101 => ⟨S256x64, .f32⟩
  | 102 => ⟨S256x512, .f32⟩
  | 103 => ⟨S256x512, .bf16⟩
  | 104 => ⟨S64x512, .f32⟩
  | 105 => ⟨S1x256x64, .f32⟩
  | 106 => ⟨S256x64, .f32⟩
  | 107 => ⟨S256x512, .f32⟩
  | 108 => ⟨S256x512, .bf16⟩
  | 109 => ⟨S64x512, .f32⟩
  | 110 => ⟨S1x256x64, .f32⟩
  | 111 => ⟨S256x64, .f32⟩
  | 112 => ⟨S256x512, .f32⟩
  | 113 => ⟨S256x512, .bf16⟩
  | 114 => ⟨S64x512, .f32⟩
  | 115 => ⟨S1x256x64, .f32⟩
  | 116 => ⟨S256x64, .f32⟩
  | 117 => ⟨S256x512, .f32⟩
  | 118 => ⟨S256x512, .bf16⟩
  | 119 => ⟨S64x512, .f32⟩
  | 120 => ⟨S1x256x64, .f32⟩
  | 121 => ⟨S256x64, .f32⟩
  | 122 => ⟨S256x512, .f32⟩
  | 123 => ⟨S256x512, .bf16⟩
  | 124 => ⟨S1x256x512, .bf16⟩
  | 125 => ⟨S1x256x512, .bf16⟩
  | 126 => ⟨S1x256x512, .bf16⟩
  | 127 => ⟨S1x256x512, .bf16⟩
  | _ => ⟨S65536, .i32⟩

abbrev hbmTy0_1 (i : Nat) : BufTy := match i % 128 with
  | 0 => ⟨S1x256x512, .bf16⟩
  | 1 => ⟨S5x256x512, .bf16⟩
  | 2 => ⟨S64x512, .f32⟩
  | 3 => ⟨S1x256x64, .f32⟩
  | 4 => ⟨S256x64, .f32⟩
  | 5 => ⟨S256x512, .f32⟩
  | 6 => ⟨S256x512, .bf16⟩
  | 7 => ⟨S64x512, .f32⟩
  | 8 => ⟨S1x256x64, .f32⟩
  | 9 => ⟨S256x64, .f32⟩
  | 10 => ⟨S256x512, .f32⟩
  | 11 => ⟨S256x512, .bf16⟩
  | 12 => ⟨S64x512, .f32⟩
  | 13 => ⟨S1x256x64, .f32⟩
  | 14 => ⟨S256x64, .f32⟩
  | 15 => ⟨S256x512, .f32⟩
  | 16 => ⟨S256x512, .bf16⟩
  | 17 => ⟨S64x512, .f32⟩
  | 18 => ⟨S1x256x64, .f32⟩
  | 19 => ⟨S256x64, .f32⟩
  | 20 => ⟨S256x512, .f32⟩
  | 21 => ⟨S256x512, .bf16⟩
  | 22 => ⟨S64x512, .f32⟩
  | 23 => ⟨S1x256x64, .f32⟩
  | 24 => ⟨S256x64, .f32⟩
  | 25 => ⟨S256x512, .f32⟩
  | 26 => ⟨S256x512, .bf16⟩
  | 27 => ⟨S64x512, .f32⟩
  | 28 => ⟨S1x256x64, .f32⟩
  | 29 => ⟨S256x64, .f32⟩
  | 30 => ⟨S256x512, .f32⟩
  | 31 => ⟨S256x512, .bf16⟩
  | 32 => ⟨S1x256x512, .bf16⟩
  | 33 => ⟨S1x256x512, .bf16⟩
  | 34 => ⟨S1x256x512, .bf16⟩
  | 35 => ⟨S1x256x512, .bf16⟩
  | 36 => ⟨S1x256x512, .bf16⟩
  | 37 => ⟨S1x256x512, .bf16⟩
  | 38 => ⟨S6x256x512, .bf16⟩
  | 39 => ⟨S64x512, .f32⟩
  | 40 => ⟨S1x256x64, .f32⟩
  | 41 => ⟨S256x64, .f32⟩
  | 42 => ⟨S256x512, .f32⟩
  | 43 => ⟨S256x512, .bf16⟩
  | 44 => ⟨S64x512, .f32⟩
  | 45 => ⟨S1x256x64, .f32⟩
  | 46 => ⟨S256x64, .f32⟩
  | 47 => ⟨S256x512, .f32⟩
  | 48 => ⟨S256x512, .bf16⟩
  | 49 => ⟨S64x512, .f32⟩
  | 50 => ⟨S1x256x64, .f32⟩
  | 51 => ⟨S256x64, .f32⟩
  | 52 => ⟨S256x512, .f32⟩
  | 53 => ⟨S256x512, .bf16⟩
  | 54 => ⟨S64x512, .f32⟩
  | 55 => ⟨S1x256x64, .f32⟩
  | 56 => ⟨S256x64, .f32⟩
  | 57 => ⟨S256x512, .f32⟩
  | 58 => ⟨S256x512, .bf16⟩
  | 59 => ⟨S64x512, .f32⟩
  | 60 => ⟨S1x256x64, .f32⟩
  | 61 => ⟨S256x64, .f32⟩
  | 62 => ⟨S256x512, .f32⟩
  | 63 => ⟨S256x512, .bf16⟩
  | 64 => ⟨S64x512, .f32⟩
  | 65 => ⟨S1x256x64, .f32⟩
  | 66 => ⟨S256x64, .f32⟩
  | 67 => ⟨S256x512, .f32⟩
  | 68 => ⟨S256x512, .bf16⟩
  | 69 => ⟨S1x256x512, .bf16⟩
  | 70 => ⟨S1x256x512, .bf16⟩
  | 71 => ⟨S1x256x512, .bf16⟩
  | 72 => ⟨S1x256x512, .bf16⟩
  | 73 => ⟨S1x256x512, .bf16⟩
  | 74 => ⟨S1x256x512, .bf16⟩
  | 75 => ⟨S6x256x512, .bf16⟩
  | 76 => ⟨S512x264, .f32⟩
  | 77 => ⟨S512x264, .bf16⟩
  | 78 => ⟨S512x264, .f32⟩
  | 79 => ⟨S512x264, .bf16⟩
  | 80 => ⟨S512x256, .bf16⟩
  | 81 => ⟨S512x256, .bf16⟩
  | 82 => ⟨S512x256, .bf16⟩
  | 83 => ⟨S65536x1296, .f32⟩
  | _ => ⟨S65536, .i32⟩

abbrev hbmTy (i : Nat) : BufTy := match i / 128 with
  | 0 => hbmTy0_0 i
  | 1 => hbmTy0_1 i
  | _ => ⟨S65536, .i32⟩

abbrev bufTy : (tb : Table) → Fin (tcTables nBuf tb) → BufTy
  | .hbm, ⟨i, _⟩ => hbmTy i
  | .local _ .vmem, ⟨0, _⟩ => ⟨S1024x9, .i32⟩
  | .local _ .vmem, ⟨1, _⟩ => ⟨S1024x9, .i32⟩
  | .local _ .vmem, ⟨2, _⟩ => ⟨S256x5, .bf16⟩
  | .local _ .vmem, ⟨3, _⟩ => ⟨S4x256x512, .bf16⟩
  | .local _ .vmem, ⟨4, _⟩ => ⟨S512, .f32⟩
  | .local _ .vmem, ⟨5, _⟩ => ⟨S512x264, .bf16⟩
  | .local _ .vmem, ⟨6, _⟩ => ⟨S4x256x512, .bf16⟩
  | .local _ .vmem, ⟨7, _⟩ => ⟨S512, .f32⟩
  | .local _ .vmem, ⟨8, _⟩ => ⟨S512x264, .bf16⟩
  | .local _ .vmem, ⟨9, _⟩ => ⟨S5x256x512, .bf16⟩
  | .local _ .vmem, ⟨10, _⟩ => ⟨S512, .f32⟩
  | .local _ .vmem, ⟨11, _⟩ => ⟨S512x256, .bf16⟩
  | .local _ .vmem, ⟨12, _⟩ => ⟨S6x256x512, .bf16⟩
  | .local _ .vmem, ⟨13, _⟩ => ⟨S512, .f32⟩
  | .local _ .vmem, ⟨14, _⟩ => ⟨S512x256, .bf16⟩
  | .local _ .vmem, ⟨15, _⟩ => ⟨S6x256x512, .bf16⟩
  | .local _ .vmem, ⟨16, _⟩ => ⟨S512, .f32⟩
  | .local _ .vmem, ⟨17, _⟩ => ⟨S512x256, .bf16⟩
  | .local _ .vmem, ⟨18, _⟩ => ⟨S1024x1296, .f32⟩
  | .local _ .vmem, ⟨19, _⟩ => ⟨S1024x1296, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x9 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x5 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x264 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x264 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S6x256x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1024x1296 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S65536_S65536x1_0 : S65536.BroadcastsInDim S65536x1 (![0] : Fin 1 → Fin S65536x1.rank)
  concatenates_S65536x1_S65536x1_S65536x1_S65536x1_S65536x1_S65536x1_S65536x1_S65536x1_S65536x1_S65536x9_d1 : Shape.Concatenates [S65536x1, S65536x1, S65536x1, S65536x1, S65536x1, S65536x1, S65536x1, S65536x1, S65536x1] S65536x9 1
  bcast_S256_S256x1_0 : S256.BroadcastsInDim S256x1 (![0] : Fin 1 → Fin S256x1.rank)
  bcast_S5_S1x5_1 : S5.BroadcastsInDim S1x5 (![1] : Fin 1 → Fin S1x5.rank)
  bcast_S256x1_S256x5_0_1 : S256x1.BroadcastsInDim S256x5 (![0, 1] : Fin 2 → Fin S256x5.rank)
  bcast_S1x5_S256x5_0_1 : S1x5.BroadcastsInDim S256x5 (![0, 1] : Fin 2 → Fin S256x5.rank)
  slices_S256x512_S64x512_0_0 : S256x512.Slices ![0, 0] S64x512
  slices_S4x256x64_S1x256x64_0_0_0 : S4x256x64.Slices ![0, 0, 0] S1x256x64
  shapeCasts_S1x256x64_S256x64 : S1x256x64.ShapeCasts S256x64
  bitsLt_bf16_f32 : FTy.bits .bf16 < FTy.bits .f32
  slices_S256x512_S64x512_64_0 : S256x512.Slices ![64, 0] S64x512
  slices_S4x256x64_S1x256x64_1_0_0 : S4x256x64.Slices ![1, 0, 0] S1x256x64
  slices_S256x512_S64x512_128_0 : S256x512.Slices ![128, 0] S64x512
  slices_S4x256x64_S1x256x64_2_0_0 : S4x256x64.Slices ![2, 0, 0] S1x256x64
  slices_S256x512_S64x512_192_0 : S256x512.Slices ![192, 0] S64x512
  slices_S4x256x64_S1x256x64_3_0_0 : S4x256x64.Slices ![3, 0, 0] S1x256x64
  bcast_S256x512_S1x256x512_1_2 : S256x512.BroadcastsInDim S1x256x512 (![1, 2] : Fin 2 → Fin S1x256x512.rank)
  concatenates_S1x256x512_S1x256x512_S1x256x512_S1x256x512_S4x256x512_d0 : Shape.Concatenates [S1x256x512, S1x256x512, S1x256x512, S1x256x512] S4x256x512 0
  slices_S320x512_S64x512_0_0 : S320x512.Slices ![0, 0] S64x512
  slices_S5x256x64_S1x256x64_0_0_0 : S5x256x64.Slices ![0, 0, 0] S1x256x64
  slices_S320x512_S64x512_64_0 : S320x512.Slices ![64, 0] S64x512
  slices_S5x256x64_S1x256x64_1_0_0 : S5x256x64.Slices ![1, 0, 0] S1x256x64
  slices_S320x512_S64x512_128_0 : S320x512.Slices ![128, 0] S64x512
  slices_S5x256x64_S1x256x64_2_0_0 : S5x256x64.Slices ![2, 0, 0] S1x256x64
  slices_S320x512_S64x512_192_0 : S320x512.Slices ![192, 0] S64x512
  slices_S5x256x64_S1x256x64_3_0_0 : S5x256x64.Slices ![3, 0, 0] S1x256x64
  slices_S320x512_S64x512_256_0 : S320x512.Slices ![256, 0] S64x512
  slices_S5x256x64_S1x256x64_4_0_0 : S5x256x64.Slices ![4, 0, 0] S1x256x64
  concatenates_S1x256x512_S1x256x512_S1x256x512_S1x256x512_S1x256x512_S5x256x512_d0 : Shape.Concatenates [S1x256x512, S1x256x512, S1x256x512, S1x256x512, S1x256x512] S5x256x512 0
  slices_S384x512_S64x512_0_0 : S384x512.Slices ![0, 0] S64x512
  slices_S6x256x64_S1x256x64_0_0_0 : S6x256x64.Slices ![0, 0, 0] S1x256x64
  slices_S384x512_S64x512_64_0 : S384x512.Slices ![64, 0] S64x512
  slices_S6x256x64_S1x256x64_1_0_0 : S6x256x64.Slices ![1, 0, 0] S1x256x64
  slices_S384x512_S64x512_128_0 : S384x512.Slices ![128, 0] S64x512
  slices_S6x256x64_S1x256x64_2_0_0 : S6x256x64.Slices ![2, 0, 0] S1x256x64
  slices_S384x512_S64x512_192_0 : S384x512.Slices ![192, 0] S64x512
  slices_S6x256x64_S1x256x64_3_0_0 : S6x256x64.Slices ![3, 0, 0] S1x256x64
  slices_S384x512_S64x512_256_0 : S384x512.Slices ![256, 0] S64x512
  slices_S6x256x64_S1x256x64_4_0_0 : S6x256x64.Slices ![4, 0, 0] S1x256x64
  slices_S384x512_S64x512_320_0 : S384x512.Slices ![320, 0] S64x512
  slices_S6x256x64_S1x256x64_5_0_0 : S6x256x64.Slices ![5, 0, 0] S1x256x64
  concatenates_S1x256x512_S1x256x512_S1x256x512_S1x256x512_S1x256x512_S1x256x512_S6x256x512_d0 : Shape.Concatenates [S1x256x512, S1x256x512, S1x256x512, S1x256x512, S1x256x512, S1x256x512] S6x256x512 0
  concatenates_S512x256_S512x8_S512x264_d1 : Shape.Concatenates [S512x256, S512x8] S512x264 1
  iota_S1024x256_d1_w32 : S1024x256.Iotas .tc 32 [1]
  inb_S1024x9_S1024x1_0_7 : ∀ a, (![0, 7] : Fin 2 → Nat) a + S1024x1.size a ≤ S1024x9.size a
  h_S1024x1 : 0 < S1024x1.numel
  shapeCasts_S1024x1_S1024x1 : S1024x1.ShapeCasts S1024x1
  broadcasts_S1024x1_S1024x256 : S1024x1.Broadcasts S1024x256
  natLt_1_32 : 1 < 32
  inb_S256x5_S256x1_0_0 : ∀ a, (![0, 0] : Fin 2 → Nat) a + S256x1.size a ≤ S256x5.size a
  h_S256x1 : 0 < S256x1.numel
  shapeCasts_S256x1_S256x1 : S256x1.ShapeCasts S256x1
  inb_S256x5_S256x1_0_1 : ∀ a, (![0, 1] : Fin 2 → Nat) a + S256x1.size a ≤ S256x5.size a
  inb_S256x5_S256x1_0_2 : ∀ a, (![0, 2] : Fin 2 → Nat) a + S256x1.size a ≤ S256x5.size a
  inb_S256x5_S256x1_0_3 : ∀ a, (![0, 3] : Fin 2 → Nat) a + S256x1.size a ≤ S256x5.size a
  inb_S256x5_S256x1_0_4 : ∀ a, (![0, 4] : Fin 2 → Nat) a + S256x1.size a ≤ S256x5.size a
  inb_S1024x9_S1024x1_0_0 : ∀ a, (![0, 0] : Fin 2 → Nat) a + S1024x1.size a ≤ S1024x9.size a
  inb_S4x256x512_S1x256x512_0_0_0 : ∀ a, (![0, 0, 0] : Fin 3 → Nat) a + S1x256x512.size a ≤ S4x256x512.size a
  h_S1x256x512 : 0 < S1x256x512.numel
  shapeCasts_S1x256x512_S256x512 : S1x256x512.ShapeCasts S256x512
  inb_S1024x9_S1024x1_0_8 : ∀ a, (![0, 8] : Fin 2 → Nat) a + S1024x1.size a ≤ S1024x9.size a
  inb_S4x256x512_S1x256x512_1_0_0 : ∀ a, (![1, 0, 0] : Fin 3 → Nat) a + S1x256x512.size a ≤ S4x256x512.size a
  inb_S1024x9_S1024x1_0_4 : ∀ a, (![0, 4] : Fin 2 → Nat) a + S1024x1.size a ≤ S1024x9.size a
  inb_S4x256x512_S1x256x512_2_0_0 : ∀ a, (![2, 0, 0] : Fin 3 → Nat) a + S1x256x512.size a ≤ S4x256x512.size a
  inb_S4x256x512_S1x256x512_3_0_0 : ∀ a, (![3, 0, 0] : Fin 3 → Nat) a + S1x256x512.size a ≤ S4x256x512.size a
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S512x264_S512x264_0_0 : ∀ a, (![0, 0] : Fin 2 → Nat) a + S512x264.size a ≤ S512x264.size a
  h_S512x264 : 0 < S512x264.numel
  shapeCasts_S512x264_S512x264 : S512x264.ShapeCasts S512x264
  broadcasts_S1024x1_S1024x264 : S1024x1.Broadcasts S1024x264
  inb_S1024x1296_S1024x264_0_0 : ∀ a, (![0, 0] : Fin 2 → Nat) a + S1024x264.size a ≤ S1024x1296.size a
  h_S1024x264 : 0 < S1024x264.numel
  inb_S1024x1296_S1024x264_0_264 : ∀ a, (![0, 264] : Fin 2 → Nat) a + S1024x264.size a ≤ S1024x1296.size a
  inb_S5x256x512_S1x256x512_0_0_0 : ∀ a, (![0, 0, 0] : Fin 3 → Nat) a + S1x256x512.size a ≤ S5x256x512.size a
  inb_S1024x9_S1024x1_0_1 : ∀ a, (![0, 1] : Fin 2 → Nat) a + S1024x1.size a ≤ S1024x9.size a
  inb_S5x256x512_S1x256x512_1_0_0 : ∀ a, (![1, 0, 0] : Fin 3 → Nat) a + S1x256x512.size a ≤ S5x256x512.size a
  inb_S1024x9_S1024x1_0_2 : ∀ a, (![0, 2] : Fin 2 → Nat) a + S1024x1.size a ≤ S1024x9.size a
  inb_S5x256x512_S1x256x512_2_0_0 : ∀ a, (![2, 0, 0] : Fin 3 → Nat) a + S1x256x512.size a ≤ S5x256x512.size a
  inb_S5x256x512_S1x256x512_3_0_0 : ∀ a, (![3, 0, 0] : Fin 3 → Nat) a + S1x256x512.size a ≤ S5x256x512.size a
  inb_S5x256x512_S1x256x512_4_0_0 : ∀ a, (![4, 0, 0] : Fin 3 → Nat) a + S1x256x512.size a ≤ S5x256x512.size a
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1024x1296_S1024x256_0_528 : ∀ a, (![0, 528] : Fin 2 → Nat) a + S1024x256.size a ≤ S1024x1296.size a
  h_S1024x256 : 0 < S1024x256.numel
  inb_S1024x9_S1024x1_0_5 : ∀ a, (![0, 5] : Fin 2 → Nat) a + S1024x1.size a ≤ S1024x9.size a
  inb_S6x256x512_S1x256x512_0_0_0 : ∀ a, (![0, 0, 0] : Fin 3 → Nat) a + S1x256x512.size a ≤ S6x256x512.size a
  inb_S1024x9_S1024x1_0_6 : ∀ a, (![0, 6] : Fin 2 → Nat) a + S1024x1.size a ≤ S1024x9.size a
  inb_S6x256x512_S1x256x512_1_0_0 : ∀ a, (![1, 0, 0] : Fin 3 → Nat) a + S1x256x512.size a ≤ S6x256x512.size a
  inb_S6x256x512_S1x256x512_2_0_0 : ∀ a, (![2, 0, 0] : Fin 3 → Nat) a + S1x256x512.size a ≤ S6x256x512.size a
  inb_S6x256x512_S1x256x512_3_0_0 : ∀ a, (![3, 0, 0] : Fin 3 → Nat) a + S1x256x512.size a ≤ S6x256x512.size a
  inb_S1024x9_S1024x1_0_3 : ∀ a, (![0, 3] : Fin 2 → Nat) a + S1024x1.size a ≤ S1024x9.size a
  inb_S6x256x512_S1x256x512_4_0_0 : ∀ a, (![4, 0, 0] : Fin 3 → Nat) a + S1x256x512.size a ≤ S6x256x512.size a
  inb_S6x256x512_S1x256x512_5_0_0 : ∀ a, (![5, 0, 0] : Fin 3 → Nat) a + S1x256x512.size a ≤ S6x256x512.size a
  inb_S1024x1296_S1024x256_0_784 : ∀ a, (![0, 784] : Fin 2 → Nat) a + S1024x256.size a ≤ S1024x1296.size a
  inb_S1024x1296_S1024x256_0_1040 : ∀ a, (![0, 1040] : Fin 2 → Nat) a + S1024x256.size a ≤ S1024x1296.size a
  dot_S256x64_S64x512_S256x512_1_0_0_1_n_n_wf : DotDims.WF S256x64 S64x512 S256x512 [1] [0] [0] [1] [] []
  dot_S1024x256_S256x1_S1024x1_1_0_0_1_n_n_wf : DotDims.WF S1024x256 S256x1 S1024x1 [1] [0] [0] [1] [] []
  dot_S1024x256_S256x512_S1024x512_1_0_0_1_n_n_wf : DotDims.WF S1024x256 S256x512 S1024x512 [1] [0] [0] [1] [] []
  dot_S1024x512_S512x264_S1024x264_1_0_0_1_n_n_wf : DotDims.WF S1024x512 S512x264 S1024x264 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x9.size a ≤ S65536x9.size a
  hwx0_0 : ∀ i : grid0.Coords, EltTy.bits .i32 = 32 ∨ (Rect.block (s := S65536x9) S1024x9.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x5.size a ≤ S256x5.size a
  hwx0_1 : ∀ i : grid0.Coords, EltTy.bits .bf16 = 32 ∨ (Rect.block (s := S256x5) S256x5.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x256x512.size a ≤ S4x256x512.size a
  hwx0_2 : ∀ i : grid0.Coords, EltTy.bits .bf16 = 32 ∨ (Rect.block (s := S4x256x512) S4x256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x264.size a ≤ S512x264.size a
  hwx0_4 : ∀ i : grid0.Coords, EltTy.bits .bf16 = 32 ∨ (Rect.block (s := S512x264) S512x264.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256x512.size a ≤ S4x256x512.size a
  hwx0_5 : ∀ i : grid0.Coords, EltTy.bits .bf16 = 32 ∨ (Rect.block (s := S4x256x512) S4x256x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x264.size a ≤ S512x264.size a
  hwx0_7 : ∀ i : grid0.Coords, EltTy.bits .bf16 = 32 ∨ (Rect.block (s := S512x264) S512x264.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5x256x512.size a ≤ S5x256x512.size a
  hwx0_8 : ∀ i : grid0.Coords, EltTy.bits .bf16 = 32 ∨ (Rect.block (s := S5x256x512) S5x256x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x256.size a
  hwx0_10 : ∀ i : grid0.Coords, EltTy.bits .bf16 = 32 ∨ (Rect.block (s := S512x256) S512x256.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S6x256x512.size a ≤ S6x256x512.size a
  hwx0_11 : ∀ i : grid0.Coords, EltTy.bits .bf16 = 32 ∨ (Rect.block (s := S6x256x512) S6x256x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x256.size a ≤ S512x256.size a
  hwx0_13 : ∀ i : grid0.Coords, EltTy.bits .bf16 = 32 ∨ (Rect.block (s := S512x256) S512x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S6x256x512.size a ≤ S6x256x512.size a
  hwx0_14 : ∀ i : grid0.Coords, EltTy.bits .bf16 = 32 ∨ (Rect.block (s := S6x256x512) S6x256x512.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S512x256.size a
  hwx0_16 : ∀ i : grid0.Coords, EltTy.bits .bf16 = 32 ∨ (Rect.block (s := S512x256) S512x256.size (cc0_transform_16 i) (hinb0_16 i)).WholeWords (EltTy.packing .bf16)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1024x1296.size a ≤ S65536x1296.size a
  hwx0_17 : ∀ i : grid0.Coords, EltTy.bits .f32 = 32 ∨ (Rect.block (s := S65536x1296) S1024x1296.size (cc0_transform_17 i) (hinb0_17 i)).WholeWords (EltTy.packing .f32)

variable [Facts₀]

def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x264_S1024x264_1_0_0_1_n_n : DotDims S1024x512 S512x264 S1024x264 where
  lhsContracting := [1]
  rhsContracting := [0]
  lhsNonContracting := [0]
  rhsNonContracting := [1]
  lhsBatch := []
  rhsBatch := []
  wf := dot_S1024x512_S512x264_S1024x264_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v9) S1024x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S4x256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v173) S512x264.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v66) S4x256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg17) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v175) S512x264.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v97) S5x256x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg22) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v176) S512x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v134) S6x256x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg26) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v177) S512x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v171) S6x256x512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg30) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v178) S512x256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v179) S1024x1296.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S65536 : Shape := ⟨1, ![65536]⟩
abbrev S256 : Shape := ⟨1, ![256]⟩
abbrev S4x256x64 : Shape := ⟨3, ![4, 256, 64]⟩
abbrev S256x512 : Shape := ⟨2, ![256, 512]⟩
abbrev S512 : Shape := ⟨1, ![512]⟩
abbrev S512x256 : Shape := ⟨2, ![512, 256]⟩
abbrev S512x8 : Shape := ⟨2, ![512, 8]⟩
abbrev S5x256x64 : Shape := ⟨3, ![5, 256, 64]⟩
abbrev S320x512 : Shape := ⟨2, ![320, 512]⟩
abbrev S6x256x64 : Shape := ⟨3, ![6, 256, 64]⟩
abbrev S384x512 : Shape := ⟨2, ![384, 512]⟩
abbrev S_ : Shape := ⟨0, ![]⟩
abbrev S65536x1 : Shape := ⟨2, ![65536, 1]⟩
abbrev S1x65536 : Shape := ⟨2, ![1, 65536]⟩
abbrev S4x65536 : Shape := ⟨2, ![4, 65536]⟩
abbrev S4 : Shape := ⟨1, ![4]⟩
abbrev S4x1 : Shape := ⟨2, ![4, 1]⟩
abbrev S4x65536x1 : Shape := ⟨3, ![4, 65536, 1]⟩
abbrev S4x65536x2 : Shape := ⟨3, ![4, 65536, 2]⟩
abbrev S4x65536x64 : Shape := ⟨3, ![4, 65536, 64]⟩
abbrev S65536x4x64 : Shape := ⟨3, ![65536, 4, 64]⟩
abbrev S65536x256 : Shape := ⟨2, ![65536, 256]⟩
abbrev S65536x512 : Shape := ⟨2, ![65536, 512]⟩
abbrev S1x512 : Shape := ⟨2, ![1, 512]⟩
abbrev S65536x8 : Shape := ⟨2, ![65536, 8]⟩
abbrev S65536x264 : Shape := ⟨2, ![65536, 264]⟩
abbrev S5x65536 : Shape := ⟨2, ![5, 65536]⟩
abbrev S5 : Shape := ⟨1, ![5]⟩
abbrev S5x1 : Shape := ⟨2, ![5, 1]⟩
abbrev S5x65536x1 : Shape := ⟨3, ![5, 65536, 1]⟩
abbrev S5x65536x2 : Shape := ⟨3, ![5, 65536, 2]⟩
abbrev S5x65536x64 : Shape := ⟨3, ![5, 65536, 64]⟩
abbrev S65536x5x64 : Shape := ⟨3, ![65536, 5, 64]⟩
abbrev S65536x320 : Shape := ⟨2, ![65536, 320]⟩
abbrev S6x65536 : Shape := ⟨2, ![6, 65536]⟩
abbrev S6 : Shape := ⟨1, ![6]⟩
abbrev S6x1 : Shape := ⟨2, ![6, 1]⟩
abbrev S6x65536x1 : Shape := ⟨3, ![6, 65536, 1]⟩
abbrev S6x65536x2 : Shape := ⟨3, ![6, 65536, 2]⟩
abbrev S6x65536x64 : Shape := ⟨3, ![6, 65536, 64]⟩
abbrev S65536x6x64 : Shape := ⟨3, ![65536, 6, 64]⟩
abbrev S65536x384 : Shape := ⟨2, ![65536, 384]⟩
abbrev S65536x1296 : Shape := ⟨2, ![65536, 1296]⟩

abbrev nBuf : Space → Nat
  | .hbm => 339
  | .vmem => 0
  | .smem => 0
  | _ => 0

abbrev hbmTy0_0 (i : Nat) : BufTy := match i % 128 with
  | 0 => ⟨S65536, .i32⟩
  | 1 => ⟨S65536, .i32⟩
  | 2 => ⟨S65536, .i32⟩
  | 3 => ⟨S65536, .i32⟩
  | 4 => ⟨S65536, .i32⟩
  | 5 => ⟨S65536, .i32⟩
  | 6 => ⟨S65536, .i32⟩
  | 7 => ⟨S65536, .i32⟩
  | 8 => ⟨S65536, .i32⟩
  | 9 => ⟨S256, .i32⟩
  | 10 => ⟨S4x256x64, .f32⟩
  | 11 => ⟨S256x512, .f32⟩
  | 12 => ⟨S512, .f32⟩
  | 13 => ⟨S512x256, .f32⟩
  | 14 => ⟨S512x8, .f32⟩
  | 15 => ⟨S4x256x64, .f32⟩
  | 16 => ⟨S256x512, .f32⟩
  | 17 => ⟨S512, .f32⟩
  | 18 => ⟨S512x256, .f32⟩
  | 19 => ⟨S512x8, .f32⟩
  | 20 => ⟨S5x256x64, .f32⟩
  | 21 => ⟨S320x512, .f32⟩
  | 22 => ⟨S512, .f32⟩
  | 23 => ⟨S512x256, .f32⟩
  | 24 => ⟨S6x256x64, .f32⟩
  | 25 => ⟨S384x512, .f32⟩
  | 26 => ⟨S512, .f32⟩
  | 27 => ⟨S512x256, .f32⟩
  | 28 => ⟨S6x256x64, .f32⟩
  | 29 => ⟨S384x512, .f32⟩
  | 30 => ⟨S512, .f32⟩
  | 31 => ⟨S512x256, .f32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S65536, .i32⟩
  | 41 => ⟨S_, .i32⟩
  | 42 => ⟨S65536, .i32⟩
  | 43 => ⟨S65536, .i32⟩
  | 44 => ⟨S1x65536, .i32⟩
  | 45 => ⟨S1x65536, .i32⟩
  | 46 => ⟨S1x65536, .i32⟩
  | 47 => ⟨S1x65536, .i32⟩
  | 48 => ⟨S4x65536, .i32⟩
  | 49 => ⟨S4, .i32⟩
  | 50 => ⟨S4x1, .i32⟩
  | 51 => ⟨S_, .i32⟩
  | 52 => ⟨S4x1, .i32⟩
  | 53 => ⟨S4x1, .i1⟩
  | 54 => ⟨S_, .i32⟩
  | 55 => ⟨S4x1, .i32⟩
  | 56 => ⟨S4x1, .i32⟩
  | 57 => ⟨S4x1, .i32⟩
  | 58 => ⟨S_, .i32⟩
  | 59 => ⟨S4x65536, .i32⟩
  | 60 => ⟨S4x65536, .i1⟩
  | 61 => ⟨S_, .i32⟩
  | 62 => ⟨S4x65536, .i32⟩
  | 63 => ⟨S4x65536, .i32⟩
  | 64 => ⟨S4x65536, .i32⟩
  | 65 => ⟨S4x65536, .i32⟩
  | 66 => ⟨S4x65536x1, .i32⟩
  | 67 => ⟨S4x65536x1, .i32⟩
  | 68 => ⟨S4x65536x2, .i32⟩
  | 69 => ⟨S4x65536x64, .f32⟩
  | 70 => ⟨S65536x4x64, .f32⟩
  | 71 => ⟨S65536x256, .f32⟩
  | 72 => ⟨S65536x512, .f32⟩
  | 73 => ⟨S1x512, .f32⟩
  | 74 => ⟨S65536x512, .f32⟩
  | 75 => ⟨S65536x512, .f32⟩
  | 76 => ⟨S65536x512, .f32⟩
  | 77 => ⟨S65536x512, .f32⟩
  | 78 => ⟨S_, .f32⟩
  | 79 => ⟨S65536x512, .f32⟩
  | 80 => ⟨S65536x512, .f32⟩
  | 81 => ⟨S65536x512, .f32⟩
  | 82 => ⟨S_, .f32⟩
  | 83 => ⟨S65536x512, .f32⟩
  | 84 => ⟨S65536x512, .f32⟩
  | 85 => ⟨S65536x512, .f32⟩
  | 86 => ⟨S_, .f32⟩
  | 87 => ⟨S65536x512, .f32⟩
  | 88 => ⟨S65536x512, .f32⟩
  | 89 => ⟨S_, .f32⟩
  | 90 => ⟨S65536x512, .f32⟩
  | 91 => ⟨S65536x512, .f32⟩
  | 92 => ⟨S65536x512, .f32⟩
  | 93 => ⟨S65536x256, .f32⟩
  | 94 => ⟨S65536x8, .f32⟩
  | 95 => ⟨S65536x264, .f32⟩
  | 96 => ⟨S_, .i32⟩
  | 97 => ⟨S65536, .i32⟩
  | 98 => ⟨S65536, .i1⟩
  | 99 => ⟨S65536x1, .i1⟩
  | 100 => ⟨S65536x1, .f32⟩
  | 101 => ⟨S65536x264, .f32⟩
  | 102 => ⟨S65536x264, .f32⟩
  | 103 => ⟨S1x65536, .i32⟩
  | 104 => ⟨S1x65536, .i32⟩
  | 105 => ⟨S1x65536, .i32⟩
  | 106 => ⟨S1x65536, .i32⟩
  | 107 => ⟨S4x65536, .i32⟩
  | 108 => ⟨S4, .i32⟩
  | 109 => ⟨S4x1, .i32⟩
  | 110 => ⟨S_, .i32⟩
  | 111 => ⟨S4x1, .i32⟩
  | 112 => ⟨S4x1, .i1⟩
  | 113 => ⟨S_, .i32⟩
  | 114 => ⟨S4x1, .i32⟩
  | 115 => ⟨S4x1, .i32⟩
  | 116 => ⟨S4x1, .i32⟩
  | 117 => ⟨S_, .i32⟩
  | 118 => ⟨S4x65536, .i32⟩
  | 119 => ⟨S4x65536, .i1⟩
  | 120 => ⟨S_, .i32⟩
  | 121 => ⟨S4x65536, .i32⟩
  | 122 => ⟨S4x65536, .i32⟩
  | 123 => ⟨S4x65536, .i32⟩
  | 124 => ⟨S4x65536, .i32⟩
  | 125 => ⟨S4x65536x1, .i32⟩
  | 126 => ⟨S4x65536x1, .i32⟩
  | 127 => ⟨S4x65536x2, .i32⟩
  | _ => ⟨S65536, .i32⟩

abbrev hbmTy0_1 (i : Nat) : BufTy := match i % 128 with
  | 0 => ⟨S4x65536x64, .f32⟩
  | 1 => ⟨S65536x4x64, .f32⟩
  | 2 => ⟨S65536x256, .f32⟩
  | 3 => ⟨S65536x512, .f32⟩
  | 4 => ⟨S1x512, .f32⟩
  | 5 => ⟨S65536x512, .f32⟩
  | 6 => ⟨S65536x512, .f32⟩
  | 7 => ⟨S65536x512, .f32⟩
  | 8 => ⟨S65536x512, .f32⟩
  | 9 => ⟨S_, .f32⟩
  | 10 => ⟨S65536x512, .f32⟩
  | 11 => ⟨S65536x512, .f32⟩
  | 12 => ⟨S65536x512, .f32⟩
  | 13 => ⟨S_, .f32⟩
  | 14 => ⟨S65536x512, .f32⟩
  | 15 => ⟨S65536x512, .f32⟩
  | 16 => ⟨S65536x512, .f32⟩
  | 17 => ⟨S_, .f32⟩
  | 18 => ⟨S65536x512, .f32⟩
  | 19 => ⟨S65536x512, .f32⟩
  | 20 => ⟨S_, .f32⟩
  | 21 => ⟨S65536x512, .f32⟩
  | 22 => ⟨S65536x512, .f32⟩
  | 23 => ⟨S65536x512, .f32⟩
  | 24 => ⟨S65536x256, .f32⟩
  | 25 => ⟨S65536x8, .f32⟩
  | 26 => ⟨S65536x264, .f32⟩
  | 27 => ⟨S_, .i32⟩
  | 28 => ⟨S65536, .i32⟩
  | 29 => ⟨S65536, .i1⟩
  | 30 => ⟨S65536x1, .i1⟩
  | 31 => ⟨S65536x1, .f32⟩
  | 32 => ⟨S65536x264, .f32⟩
  | 33 => ⟨S65536x264, .f32⟩
  | 34 => ⟨S1x65536, .i32⟩
  | 35 => ⟨S1x65536, .i32⟩
  | 36 => ⟨S1x65536, .i32⟩
  | 37 => ⟨S1x65536, .i32⟩
  | 38 => ⟨S1x65536, .i32⟩
  | 39 => ⟨S5x65536, .i32⟩
  | 40 => ⟨S5, .i32⟩
  | 41 => ⟨S5x1, .i32⟩
  | 42 => ⟨S_, .i32⟩
  | 43 => ⟨S5x1, .i32⟩
  | 44 => ⟨S5x1, .i1⟩
  | 45 => ⟨S_, .i32⟩
  | 46 => ⟨S5x1, .i32⟩
  | 47 => ⟨S5x1, .i32⟩
  | 48 => ⟨S5x1, .i32⟩
  | 49 => ⟨S_, .i32⟩
  | 50 => ⟨S5x65536, .i32⟩
  | 51 => ⟨S5x65536, .i1⟩
  | 52 => ⟨S_, .i32⟩
  | 53 => ⟨S5x65536, .i32⟩
  | 54 => ⟨S5x65536, .i32⟩
  | 55 => ⟨S5x65536, .i32⟩
  | 56 => ⟨S5x65536, .i32⟩
  | 57 => ⟨S5x65536x1, .i32⟩
  | 58 => ⟨S5x65536x1, .i32⟩
  | 59 => ⟨S5x65536x2, .i32⟩
  | 60 => ⟨S5x65536x64, .f32⟩
  | 61 => ⟨S65536x5x64, .f32⟩
  | 62 => ⟨S65536x320, .f32⟩
  | 63 => ⟨S65536x512, .f32⟩
  | 64 => ⟨S1x512, .f32⟩
  | 65 => ⟨S65536x512, .f32⟩
  | 66 => ⟨S65536x512, .f32⟩
  | 67 => ⟨S65536x512, .f32⟩
  | 68 => ⟨S65536x512, .f32⟩
  | 69 => ⟨S_, .f32⟩
  | 70 => ⟨S65536x512, .f32⟩
  | 71 => ⟨S65536x512, .f32⟩
  | 72 => ⟨S65536x512, .f32⟩
  | 73 => ⟨S_, .f32⟩
  | 74 => ⟨S65536x512, .f32⟩
  | 75 => ⟨S65536x512, .f32⟩
  | 76 => ⟨S65536x512, .f32⟩
  | 77 => ⟨S_, .f32⟩
  | 78 => ⟨S65536x512, .f32⟩
  | 79 => ⟨S65536x512, .f32⟩
  | 80 => ⟨S_, .f32⟩
  | 81 => ⟨S65536x512, .f32⟩
  | 82 => ⟨S65536x512, .f32⟩
  | 83 => ⟨S65536x512, .f32⟩
  | 84 => ⟨S65536x256, .f32⟩
  | 85 => ⟨S_, .i32⟩
  | 86 => ⟨S65536, .i32⟩
  | 87 => ⟨S65536, .i1⟩
  | 88 => ⟨S65536x1, .i1⟩
  | 89 => ⟨S65536x1, .f32⟩
  | 90 => ⟨S65536x256, .f32⟩
  | 91 => ⟨S65536x256, .f32⟩
  | 92 => ⟨S1x65536, .i32⟩
  | 93 => ⟨S1x65536, .i32⟩
  | 94 => ⟨S1x65536, .i32⟩
  | 95 => ⟨S1x65536, .i32⟩
  | 96 => ⟨S1x65536, .i32⟩
  | 97 => ⟨S1x65536, .i32⟩
  | 98 => ⟨S6x65536, .i32⟩
  | 99 => ⟨S6, .i32⟩
  | 100 => ⟨S6x1, .i32⟩
  | 101 => ⟨S_, .i32⟩
  | 102 => ⟨S6x1, .i32⟩
  | 103 => ⟨S6x1, .i1⟩
  | 104 => ⟨S_, .i32⟩
  | 105 => ⟨S6x1, .i32⟩
  | 106 => ⟨S6x1, .i32⟩
  | 107 => ⟨S6x1, .i32⟩
  | 108 => ⟨S_, .i32⟩
  | 109 => ⟨S6x65536, .i32⟩
  | 110 => ⟨S6x65536, .i1⟩
  | 111 => ⟨S_, .i32⟩
  | 112 => ⟨S6x65536, .i32⟩
  | 113 => ⟨S6x65536, .i32⟩
  | 114 => ⟨S6x65536, .i32⟩
  | 115 => ⟨S6x65536, .i32⟩
  | 116 => ⟨S6x65536x1, .i32⟩
  | 117 => ⟨S6x65536x1, .i32⟩
  | 118 => ⟨S6x65536x2, .i32⟩
  | 119 => ⟨S6x65536x64, .f32⟩
  | 120 => ⟨S65536x6x64, .f32⟩
  | 121 => ⟨S65536x384, .f32⟩
  | 122 => ⟨S65536x512, .f32⟩
  | 123 => ⟨S1x512, .f32⟩
  | 124 => ⟨S65536x512, .f32⟩
  | 125 => ⟨S65536x512, .f32⟩
  | 126 => ⟨S65536x512, .f32⟩
  | 127 => ⟨S65536x512, .f32⟩
  | _ => ⟨S65536, .i32⟩

abbrev hbmTy0_2 (i : Nat) : BufTy := match i % 128 with
  | 0 => ⟨S_, .f32⟩
  | 1 => ⟨S65536x512, .f32⟩
  | 2 => ⟨S65536x512, .f32⟩
  | 3 => ⟨S65536x512, .f32⟩
  | 4 => ⟨S_, .f32⟩
  | 5 => ⟨S65536x512, .f32⟩
  | 6 => ⟨S65536x512, .f32⟩
  | 7 => ⟨S65536x512, .f32⟩
  | 8 => ⟨S_, .f32⟩
  | 9 => ⟨S65536x512, .f32⟩
  | 10 => ⟨S65536x512, .f32⟩
  | 11 => ⟨S_, .f32⟩
  | 12 => ⟨S65536x512, .f32⟩
  | 13 => ⟨S65536x512, .f32⟩
  | 14 => ⟨S65536x512, .f32⟩
  | 15 => ⟨S65536x256, .f32⟩
  | 16 => ⟨S_, .i32⟩
  | 17 => ⟨S65536, .i32⟩
  | 18 => ⟨S65536, .i1⟩
  | 19 => ⟨S65536x1, .i1⟩
  | 20 => ⟨S65536x1, .f32⟩
  | 21 => ⟨S65536x256, .f32⟩
  | 22 => ⟨S65536x256, .f32⟩
  | 23 => ⟨S1x65536, .i32⟩
  | 24 => ⟨S1x65536, .i32⟩
  | 25 => ⟨S1x65536, .i32⟩
  | 26 => ⟨S1x65536, .i32⟩
  | 27 => ⟨S1x65536, .i32⟩
  | 28 => ⟨S1x65536, .i32⟩
  | 29 => ⟨S6x65536, .i32⟩
  | 30 => ⟨S6, .i32⟩
  | 31 => ⟨S6x1, .i32⟩
  | 32 => ⟨S_, .i32⟩
  | 33 => ⟨S6x1, .i32⟩
  | 34 => ⟨S6x1, .i1⟩
  | 35 => ⟨S_, .i32⟩
  | 36 => ⟨S6x1, .i32⟩
  | 37 => ⟨S6x1, .i32⟩
  | 38 => ⟨S6x1, .i32⟩
  | 39 => ⟨S_, .i32⟩
  | 40 => ⟨S6x65536, .i32⟩
  | 41 => ⟨S6x65536, .i1⟩
  | 42 => ⟨S_, .i32⟩
  | 43 => ⟨S6x65536, .i32⟩
  | 44 => ⟨S6x65536, .i32⟩
  | 45 => ⟨S6x65536, .i32⟩
  | 46 => ⟨S6x65536, .i32⟩
  | 47 => ⟨S6x65536x1, .i32⟩
  | 48 => ⟨S6x65536x1, .i32⟩
  | 49 => ⟨S6x65536x2, .i32⟩
  | 50 => ⟨S6x65536x64, .f32⟩
  | 51 => ⟨S65536x6x64, .f32⟩
  | 52 => ⟨S65536x384, .f32⟩
  | 53 => ⟨S65536x512, .f32⟩
  | 54 => ⟨S1x512, .f32⟩
  | 55 => ⟨S65536x512, .f32⟩
  | 56 => ⟨S65536x512, .f32⟩
  | 57 => ⟨S65536x512, .f32⟩
  | 58 => ⟨S65536x512, .f32⟩
  | 59 => ⟨S_, .f32⟩
  | 60 => ⟨S65536x512, .f32⟩
  | 61 => ⟨S65536x512, .f32⟩
  | 62 => ⟨S65536x512, .f32⟩
  | 63 => ⟨S_, .f32⟩
  | 64 => ⟨S65536x512, .f32⟩
  | 65 => ⟨S65536x512, .f32⟩
  | 66 => ⟨S65536x512, .f32⟩
  | 67 => ⟨S_, .f32⟩
  | 68 => ⟨S65536x512, .f32⟩
  | 69 => ⟨S65536x512, .f32⟩
  | 70 => ⟨S_, .f32⟩
  | 71 => ⟨S65536x512, .f32⟩
  | 72 => ⟨S65536x512, .f32⟩
  | 73 => ⟨S65536x512, .f32⟩
  | 74 => ⟨S65536x256, .f32⟩
  | 75 => ⟨S_, .i32⟩
  | 76 => ⟨S65536, .i32⟩
  | 77 => ⟨S65536, .i1⟩
  | 78 => ⟨S65536x1, .i1⟩
  | 79 => ⟨S65536x1, .f32⟩
  | 80 => ⟨S65536x256, .f32⟩
  | 81 => ⟨S65536x256, .f32⟩
  | 82 => ⟨S65536x1296, .f32⟩
  | _ => ⟨S65536, .i32⟩

abbrev hbmTy (i : Nat) : BufTy := match i / 128 with
  | 0 => hbmTy0_0 i
  | 1 => hbmTy0_1 i
  | 2 => hbmTy0_2 i
  | _ => ⟨S65536, .i32⟩

abbrev bufTy : (tb : Table) → Fin (tcTables nBuf tb) → BufTy
  | .hbm, ⟨i, _⟩ => hbmTy i
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_c : Ref sig .tc := ⟨.hbm, 32, rfl⟩
abbrev main_v0 : Ref sig .tc := ⟨.hbm, 33, rfl⟩
abbrev main_v1 : Ref sig .tc := ⟨.hbm, 34, rfl⟩
abbrev main_c_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_c_1 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_c_2 : Ref sig .tc := ⟨.hbm, 51, rfl⟩
abbrev main_v16 : Ref sig .tc := ⟨.hbm, 52, rfl⟩
abbrev main_v17 : Ref sig .tc := ⟨.hbm, 53, rfl⟩
abbrev main_c_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_c_4 : Ref sig .tc := ⟨.hbm, 58, rfl⟩
abbrev main_v21 : Ref sig .tc := ⟨.hbm, 59, rfl⟩
abbrev main_v22 : Ref sig .tc := ⟨.hbm, 60, rfl⟩
abbrev main_c_5 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_6 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_7 : Ref sig .tc := ⟨.hbm, 86, rfl⟩
abbrev main_v45 : Ref sig .tc := ⟨.hbm, 87, rfl⟩
abbrev main_v46 : Ref sig .tc := ⟨.hbm, 88, rfl⟩
abbrev main_cst_8 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_c_9 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_10 : Ref sig .tc := ⟨.hbm, 110, rfl⟩
abbrev main_v66 : Ref sig .tc := ⟨.hbm, 111, rfl⟩
abbrev main_v67 : Ref sig .tc := ⟨.hbm, 112, rfl⟩
abbrev main_c_11 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_c_12 : Ref sig .tc := ⟨.hbm, 117, rfl⟩
abbrev main_v71 : Ref sig .tc := ⟨.hbm, 118, rfl⟩
abbrev main_v72 : Ref sig .tc := ⟨.hbm, 119, rfl⟩
abbrev main_c_13 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_14 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_15 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_16 : Ref sig .tc := ⟨.hbm, 145, rfl⟩
abbrev main_v95 : Ref sig .tc := ⟨.hbm, 146, rfl⟩
abbrev main_v96 : Ref sig .tc := ⟨.hbm, 147, rfl⟩
abbrev main_cst_17 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_c_18 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_c_19 : Ref sig .tc := ⟨.hbm, 170, rfl⟩
abbrev main_v117 : Ref sig .tc := ⟨.hbm, 171, rfl⟩
abbrev main_v118 : Ref sig .tc := ⟨.hbm, 172, rfl⟩
abbrev main_c_20 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_c_21 : Ref sig .tc := ⟨.hbm, 177, rfl⟩
abbrev main_v122 : Ref sig .tc := ⟨.hbm, 178, rfl⟩
abbrev main_v123 : Ref sig .tc := ⟨.hbm, 179, rfl⟩
abbrev main_c_22 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_23 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_24 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_cst_25 : Ref sig .tc := ⟨.hbm, 205, rfl⟩
abbrev main_v146 : Ref sig .tc := ⟨.hbm, 206, rfl⟩
abbrev main_v147 : Ref sig .tc := ⟨.hbm, 207, rfl⟩
abbrev main_cst_26 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_c_27 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_c_28 : Ref sig .tc := ⟨.hbm, 229, rfl⟩
abbrev main_v167 : Ref sig .tc := ⟨.hbm, 230, rfl⟩
abbrev main_v168 : Ref sig .tc := ⟨.hbm, 231, rfl⟩
abbrev main_c_29 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_c_30 : Ref sig .tc := ⟨.hbm, 236, rfl⟩
abbrev main_v172 : Ref sig .tc := ⟨.hbm, 237, rfl⟩
abbrev main_v173 : Ref sig .tc := ⟨.hbm, 238, rfl⟩
abbrev main_c_31 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_cst_32 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_cst_33 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_cst_34 : Ref sig .tc := ⟨.hbm, 264, rfl⟩
abbrev main_v196 : Ref sig .tc := ⟨.hbm, 265, rfl⟩
abbrev main_v197 : Ref sig .tc := ⟨.hbm, 266, rfl⟩
abbrev main_cst_35 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_c_36 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_c_37 : Ref sig .tc := ⟨.hbm, 288, rfl⟩
abbrev main_v217 : Ref sig .tc := ⟨.hbm, 289, rfl⟩
abbrev main_v218 : Ref sig .tc := ⟨.hbm, 290, rfl⟩
abbrev main_c_38 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_c_39 : Ref sig .tc := ⟨.hbm, 295, rfl⟩
abbrev main_v222 : Ref sig .tc := ⟨.hbm, 296, rfl⟩
abbrev main_v223 : Ref sig .tc := ⟨.hbm, 297, rfl⟩
abbrev main_c_40 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_v231 : Ref sig .tc := ⟨.hbm, 306, rfl⟩
abbrev main_v232 : Ref sig .tc := ⟨.hbm, 307, rfl⟩
abbrev main_v233 : Ref sig .tc := ⟨.hbm, 308, rfl⟩
abbrev main_v234 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_v238 : Ref sig .tc := ⟨.hbm, 313, rfl⟩
abbrev main_v239 : Ref sig .tc := ⟨.hbm, 314, rfl⟩
abbrev main_cst_41 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_cst_42 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_cst_43 : Ref sig .tc := ⟨.hbm, 323, rfl⟩
abbrev main_v246 : Ref sig .tc := ⟨.hbm, 324, rfl⟩
abbrev main_v247 : Ref sig .tc := ⟨.hbm, 325, rfl⟩
abbrev main_cst_44 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_c_45 : Ref sig .tc := ⟨.hbm, 331, rfl⟩
abbrev main_v252 : Ref sig .tc := ⟨.hbm, 332, rfl⟩
abbrev main_v253 : Ref sig .tc := ⟨.hbm, 333, rfl⟩
abbrev main_v254 : Ref sig .tc := ⟨.hbm, 334, rfl⟩
abbrev main_v255 : Ref sig .tc := ⟨.hbm, 335, rfl⟩
abbrev main_v256 : Ref sig .tc := ⟨.hbm, 336, rfl⟩
abbrev main_v257 : Ref sig .tc := ⟨.hbm, 337, rfl⟩
abbrev main_v258 : Ref sig .tc := ⟨.hbm, 338, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S65536_S1x65536_1 : S65536.BroadcastsInDim S1x65536 (![1] : Fin 1 → Fin S1x65536.rank)
  concatenates_S1x65536_S1x65536_S1x65536_S1x65536_S4x65536_d0 : Shape.Concatenates [S1x65536, S1x65536, S1x65536, S1x65536] S4x65536 0
  bcast_S4_S4x1_0 : S4.BroadcastsInDim S4x1 (![0] : Fin 1 → Fin S4x1.rank)
  bcast_S_S4x1 : S_.BroadcastsInDim S4x1 (![] : Fin 0 → Fin S4x1.rank)
  bcast_S_S4x65536 : S_.BroadcastsInDim S4x65536 (![] : Fin 0 → Fin S4x65536.rank)
  bcast_S4x1_S4x65536_0_1 : S4x1.BroadcastsInDim S4x65536 (![0, 1] : Fin 2 → Fin S4x65536.rank)
  bcast_S4x65536_S4x65536x1_0_1 : S4x65536.BroadcastsInDim S4x65536x1 (![0, 1] : Fin 2 → Fin S4x65536x1.rank)
  concatenates_S4x65536x1_S4x65536x1_S4x65536x2_d2 : Shape.Concatenates [S4x65536x1, S4x65536x1] S4x65536x2 2
  transposes_S4x65536x64_S65536x4x64_1_0_2 : S4x65536x64.Transposes [1, 0, 2] S65536x4x64
  shapeCasts_S65536x4x64_S65536x256 : S65536x4x64.ShapeCasts S65536x256
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  concatenates_S65536x256_S65536x8_S65536x264_d1 : Shape.Concatenates [S65536x256, S65536x8] S65536x264 1
  bcast_S65536x1_S65536x264_0_1 : S65536x1.BroadcastsInDim S65536x264 (![0, 1] : Fin 2 → Fin S65536x264.rank)
  concatenates_S1x65536_S1x65536_S1x65536_S1x65536_S1x65536_S5x65536_d0 : Shape.Concatenates [S1x65536, S1x65536, S1x65536, S1x65536, S1x65536] S5x65536 0
  bcast_S5_S5x1_0 : S5.BroadcastsInDim S5x1 (![0] : Fin 1 → Fin S5x1.rank)
  bcast_S_S5x1 : S_.BroadcastsInDim S5x1 (![] : Fin 0 → Fin S5x1.rank)
  bcast_S_S5x65536 : S_.BroadcastsInDim S5x65536 (![] : Fin 0 → Fin S5x65536.rank)
  bcast_S5x1_S5x65536_0_1 : S5x1.BroadcastsInDim S5x65536 (![0, 1] : Fin 2 → Fin S5x65536.rank)
  bcast_S5x65536_S5x65536x1_0_1 : S5x65536.BroadcastsInDim S5x65536x1 (![0, 1] : Fin 2 → Fin S5x65536x1.rank)
  concatenates_S5x65536x1_S5x65536x1_S5x65536x2_d2 : Shape.Concatenates [S5x65536x1, S5x65536x1] S5x65536x2 2
  transposes_S5x65536x64_S65536x5x64_1_0_2 : S5x65536x64.Transposes [1, 0, 2] S65536x5x64
  shapeCasts_S65536x5x64_S65536x320 : S65536x5x64.ShapeCasts S65536x320
  bcast_S65536x1_S65536x256_0_1 : S65536x1.BroadcastsInDim S65536x256 (![0, 1] : Fin 2 → Fin S65536x256.rank)
  concatenates_S1x65536_S1x65536_S1x65536_S1x65536_S1x65536_S1x65536_S6x65536_d0 : Shape.Concatenates [S1x65536, S1x65536, S1x65536, S1x65536, S1x65536, S1x65536] S6x65536 0
  bcast_S6_S6x1_0 : S6.BroadcastsInDim S6x1 (![0] : Fin 1 → Fin S6x1.rank)
  bcast_S_S6x1 : S_.BroadcastsInDim S6x1 (![] : Fin 0 → Fin S6x1.rank)
  bcast_S_S6x65536 : S_.BroadcastsInDim S6x65536 (![] : Fin 0 → Fin S6x65536.rank)
  bcast_S6x1_S6x65536_0_1 : S6x1.BroadcastsInDim S6x65536 (![0, 1] : Fin 2 → Fin S6x65536.rank)
  bcast_S6x65536_S6x65536x1_0_1 : S6x65536.BroadcastsInDim S6x65536x1 (![0, 1] : Fin 2 → Fin S6x65536x1.rank)
  concatenates_S6x65536x1_S6x65536x1_S6x65536x2_d2 : Shape.Concatenates [S6x65536x1, S6x65536x1] S6x65536x2 2
  transposes_S6x65536x64_S65536x6x64_1_0_2 : S6x65536x64.Transposes [1, 0, 2] S65536x6x64
  shapeCasts_S65536x6x64_S65536x384 : S65536x6x64.ShapeCasts S65536x384
  concatenates_S65536x264_S65536x264_S65536x256_S65536x256_S65536x256_S65536x1296_d1 : Shape.Concatenates [S65536x264, S65536x264, S65536x256, S65536x256, S65536x256] S65536x1296 1
  gather_S256_S65536x1_S65536_n_0_n_n_0_1_1_wf : GatherDims.WF S256 S65536x1 S65536 [] [0] [] [0] [] 1 ![1]
  gather_S4x256x64_S4x65536x2_S4x65536x64_2_01_n_n_01_2_1164_wf : GatherDims.WF S4x256x64 S4x65536x2 S4x65536x64 [2] [0, 1] [] [0, 1] [] 2 ![1, 1, 64]
  dot_S65536x256_S256x512_S65536x512_1_0_0_1_n_n_wf : DotDims.WF S65536x256 S256x512 S65536x512 [1] [0] [0] [1] [] []
  dot_S65536x512_S512x256_S65536x256_1_0_0_1_n_n_wf : DotDims.WF S65536x512 S512x256 S65536x256 [1] [0] [0] [1] [] []
  dot_S65536x512_S512x8_S65536x8_1_0_0_1_n_n_wf : DotDims.WF S65536x512 S512x8 S65536x8 [1] [0] [0] [1] [] []
  gather_S5x256x64_S5x65536x2_S5x65536x64_2_01_n_n_01_2_1164_wf : GatherDims.WF S5x256x64 S5x65536x2 S5x65536x64 [2] [0, 1] [] [0, 1] [] 2 ![1, 1, 64]
  dot_S65536x320_S320x512_S65536x512_1_0_0_1_n_n_wf : DotDims.WF S65536x320 S320x512 S65536x512 [1] [0] [0] [1] [] []
  gather_S6x256x64_S6x65536x2_S6x65536x64_2_01_n_n_01_2_1164_wf : GatherDims.WF S6x256x64 S6x65536x2 S6x65536x64 [2] [0, 1] [] [0, 1] [] 2 ![1, 1, 64]
  dot_S65536x384_S384x512_S65536x512_1_0_0_1_n_n_wf : DotDims.WF S65536x384 S384x512 S65536x512 [1] [0] [0] [1] [] []

variable [Facts₀]

def gather_S256_S65536x1_S65536_n_0_n_n_0_1_1 : GatherDims S256 S65536x1 S65536 where
  offsetDims := []
  collapsedSliceDims := [0]
  operandBatchingDims := []
  startIndicesBatchingDims := []
  startIndexMap := [0]
  indexVectorDim := 1
  sliceSizes := ![1]
  wf := gather_S256_S65536x1_S65536_n_0_n_n_0_1_1_wf
def gather_S4x256x64_S4x65536x2_S4x65536x64_2_01_n_n_01_2_1164 : GatherDims S4x256x64 S4x65536x2 S4x65536x64 where
  offsetDims := [2]
  collapsedSliceDims := [0, 1]
  operandBatchingDims := []
  startIndicesBatchingDims := []
  startIndexMap := [0, 1]
  indexVectorDim := 2
  sliceSizes := ![1, 1, 64]
  wf := gather_S4x256x64_S4x65536x2_S4x65536x64_2_01_n_n_01_2_1164_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x512_S512x8_S65536x8_1_0_0_1_n_n : DotDims S65536x512 S512x8 S65536x8 where
  lhsContracting := [1]
  rhsContracting := [0]
  lhsNonContracting := [0]
  rhsNonContracting := [1]
  lhsBatch := []
  rhsBatch := []
  wf := dot_S65536x512_S512x8_S65536x8_1_0_0_1_n_n_wf
def gather_S5x256x64_S5x65536x2_S5x65536x64_2_01_n_n_01_2_1164 : GatherDims S5x256x64 S5x65536x2 S5x65536x64 where
  offsetDims := [2]
  collapsedSliceDims := [0, 1]
  operandBatchingDims := []
  startIndicesBatchingDims := []
  startIndexMap := [0, 1]
  indexVectorDim := 2
  sliceSizes := ![1, 1, 64]
  wf := gather_S5x256x64_S5x65536x2_S5x65536x64_2_01_n_n_01_2_1164_wf
def dot_S65536x320_S320x512_S65536x512_1_0_0_1_n_n : DotDims S65536x320 S320x512 S65536x512 where
  lhsContracting := [1]
  rhsContracting := [0]
  lhsNonContracting := [0]
  rhsNonContracting := [1]
  lhsBatch := []
  rhsBatch := []
  wf := dot_S65536x320_S320x512_S65536x512_1_0_0_1_n_n_wf
def gather_S6x256x64_S6x65536x2_S6x65536x64_2_01_n_n_01_2_1164 : GatherDims S6x256x64 S6x65536x2 S6x65536x64 where
  offsetDims := [2]
  collapsedSliceDims := [0, 1]
  operandBatchingDims := []
  startIndicesBatchingDims := []
  startIndexMap := [0, 1]
  indexVectorDim := 2
  sliceSizes := ![1, 1, 64]
  wf := gather_S6x256x64_S6x65536x2_S6x65536x64_2_01_n_n_01_2_1164_wf
def dot_S65536x384_S384x512_S65536x512_1_0_0_1_n_n : DotDims S65536x384 S384x512 S65536x512 where
  lhsContracting := [1]
  rhsContracting := [0]
  lhsNonContracting := [0]
  rhsNonContracting := [1]
  lhsBatch := []
  rhsBatch := []
  wf := dot_S65536x384_S384x512_S65536x512_1_0_0_1_n_n_wf

class Facts : Prop extends Facts₀ where

variable [Facts]
-- ==== Proof.KPrefix.lean ====
import proofs.«403230_j21208548507705_2_alg».proof.Proof.Gen.Kernel.Launch
import proofs.«403230_j21208548507705_2_alg».proof.Proof.Gen.Kernel.Points
import Idealize.ShloMosaic.Lib.Pipeline.FrameBody
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178]

-- Host operation `k` writes its own result `main_vk` and nothing else.
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

-- A buffer no host operation writes enters the region as launched.
theorem V_of (c : Dev nD) (r : Ref sig .tc) (h : r ∉ hostOps0_W) : V m c r = m ((c : Thread nD τ).loc r) :=
  StableHlo.after_of_writes_sub hostOps0 _ hostOps0_writes h

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ArgsKept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)
    ∧ mem ((c.tc : Thread nD τ).loc main_arg15) = m ((c.tc : Thread nD τ).loc main_arg15)
    ∧ mem ((c.tc : Thread nD τ).loc main_arg16) = m ((c.tc : Thread nD τ).loc main_arg16)
    ∧ mem ((c.tc : Thread nD τ).loc main_arg17) = m ((c.tc : Thread nD τ).loc main_arg17)
    ∧ mem ((c.tc : Thread nD τ).loc main_arg18) = m ((c.tc : Thread nD τ).loc main_arg18)
    ∧ mem ((c.tc : Thread nD τ).loc main_arg19) = m ((c.tc : Thread nD τ).loc main_arg19)
    ∧ mem ((c.tc : Thread nD τ).loc main_arg20) = m ((c.tc : Thread nD τ).loc main_arg20)
    ∧ mem ((c.tc : Thread nD τ).loc main_arg21) = m ((c.tc : Thread nD τ).loc main_arg21)
    ∧ mem ((c.tc : Thread nD τ).loc main_arg22) = m ((c.tc : Thread nD τ).loc main_arg22)
    ∧ mem ((c.tc : Thread nD τ).loc main_arg23) = m ((c.tc : Thread nD τ).loc main_arg23)
    ∧ mem ((c.tc : Thread nD τ).loc main_arg24) = m ((c.tc : Thread nD τ).loc main_arg24)
    ∧ mem ((c.tc : Thread nD τ).loc main_arg25) = m ((c.tc : Thread nD τ).loc main_arg25)
    ∧ mem ((c.tc : Thread nD τ).loc main_arg26) = m ((c.tc : Thread nD τ).loc main_arg26)
    ∧ mem ((c.tc : Thread nD τ).loc main_arg27) = m ((c.tc : Thread nD τ).loc main_arg27)
    ∧ mem ((c.tc : Thread nD τ).loc main_arg28) = m ((c.tc : Thread nD τ).loc main_arg28)
    ∧ mem ((c.tc : Thread nD τ).loc main_arg29) = m ((c.tc : Thread nD τ).loc main_arg29)
    ∧ mem ((c.tc : Thread nD τ).loc main_arg30) = m ((c.tc : Thread nD τ).loc main_arg30)
    ∧ mem ((c.tc : Thread nD τ).loc main_arg31) = m ((c.tc : Thread nD τ).loc main_arg31)

-- No host operation writes an argument, and the region changes only its result array.
theorem kept_of (dats : (p : Fin 1) → (c : Dev nD) → Dat τ (Elt F) Unit ℕ (UR sig nD τ) ℕ (cfgs p) c)
    (hA : ∀ c w, (dats 0 c).A w = V m c (Pipeline.arrRef spec0 w)) {r : PUnit × MemSt nD τ sig (Elt F)}
    (h : Pipeline.FramePost cfgs dats 0 (V m) r) (c : Dev nD) : ArgsKept m r.2.mem c := by
  have staged : ∀ w : Fin cfg0.W, (cfg0.win w).isOut = false → Pipeline.arrRef spec0 w ∉ hostOps0_W →
      r.2.mem ((c.tc : Thread nD τ).loc (Pipeline.arrRef spec0 w)) = m ((c.tc : Thread nD τ).loc (Pipeline.arrRef spec0 w)) :=
    fun w hw hb => ((h c).1 w).trans (((dats 0 c).arrAt_in w hw _).trans ((hA c w).trans (V_of m c _ hb)))
  repeat' apply And.intro
  all_goals first
    | exact ((h c).2 _ (Pipeline.mem_restRefs_of _ (by decide) (by decide))).trans (V_of m c _ (by decide))
    | exact staged 3 rfl (by decide) | exact staged 6 rfl (by decide) | exact staged 9 rfl (by decide)
    | exact staged 12 rfl (by decide) | exact staged 15 rfl (by decide)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD, ArgsKept m r.2.mem c) :=
  (θ_run defs _ _).mono (fun _ h c => kept_of m dats hA h c) h

end Cert.Kernel.Hand

end
-- ==== Proof.KPieces.lean ====
import proofs.«403230_j21208548507705_2_alg».proof.Proof.Gen.Kernel.Skeleton
import Idealize.ShloMosaic.Lib.Pipeline.FrameBody

noncomputable section

namespace Cert.Kernel.Hand

open Idealize.ShloMosaic Idealize.ShloMosaic.TcCoe Idealize.SL.Sem
open Cert.Kernel Cert.Kernel.Gen

variable {F : FTy → Type} [FloatOps F]

abbrev lanes : IVec S1024x256 32 := iota .tc S1024x256 32 [1] iota_S1024x256_d1_w32

def aluOf (op a val p : Vec F S1024x1 .i32) (mk : Vec F S256x1 .bf16) (t0 t1 t2 t3 : Vec F S1x256x512 .bf16)
    (b : Vec F S512 .f32) (w : Vec F S512x264 .bf16) : FVec F S1024x264 .f32 :=
  k0_pay11 (k0_pay3 op mk) (k0_pay9 lanes (k0_pay2 op) (k0_pay8 a t0) val t1 p t2 t3 b)
    (k0_pay10 lanes (k0_pay2 op) (k0_pay8 a t0) val t1 p t2 t3 b) w

def logicOf (op a val p : Vec F S1024x1 .i32) (mk : Vec F S256x1 .bf16) (t0 t1 t2 t3 : Vec F S1x256x512 .bf16)
    (b : Vec F S512 .f32) (w : Vec F S512x264 .bf16) : FVec F S1024x264 .f32 :=
  k0_pay14 lanes (k0_pay2 op) (k0_pay4 op mk) (k0_pay12 lanes a t0 val t1) (k0_pay13 p) t2 t3 b w

def moveOf (op a x y val : Vec F S1024x1 .i32) (mk : Vec F S256x1 .bf16) (t0 t1 t2 t3 t4 : Vec F S1x256x512 .bf16)
    (b : Vec F S512 .f32) (w : Vec F S512x256 .bf16) : FVec F S1024x256 .f32 :=
  k0_pay17 (k0_pay2 op) (k0_pay5 op mk) (k0_pay15 lanes (Scalar.ofBits .f32 0x00000000#32) a t0 x t1 y t2)
    (k0_pay16 lanes val) t3 t4 b w

def flowOf (op pch pcl p val sp : Vec F S1024x1 .i32) (mk : Vec F S256x1 .bf16) (t0 t1 t2 t3 t4 t5 : Vec F S1x256x512 .bf16)
    (b : Vec F S512 .f32) (w : Vec F S512x256 .bf16) : FVec F S1024x256 .f32 :=
  k0_pay23 lanes (k0_pay2 op) (k0_pay6 op mk) (k0_pay20 lanes (k0_pay18 (F := F)) (k0_pay19 lanes pch) t0 pcl t1 p t2)
    (k0_pay21 lanes val) (k0_pay22 t3) (constant S1024x512 .f32 0x00000000#32) sp t4 t5 b w

def stackOf (op a x sp p val : Vec F S1024x1 .i32) (mk : Vec F S256x1 .bf16) (t0 t1 t2 t3 t4 t5 : Vec F S1x256x512 .bf16)
    (b : Vec F S512 .f32) (w : Vec F S512x256 .bf16) : FVec F S1024x256 .f32 :=
  k0_pay1 (k0_pay7 op mk) (k0_pay26 lanes (k0_pay2 op) (k0_pay24 lanes a t0 x t1 sp t2) (k0_pay25 p) t3 val t4 t5 b) w

abbrev cA : Rect S1024x9 := Rect.unit (s := S1024x9) ![0, 0] S1024x1.size inb_S1024x9_S1024x1_0_0
abbrev cX : Rect S1024x9 := Rect.unit (s := S1024x9) ![0, 1] S1024x1.size inb_S1024x9_S1024x1_0_1
abbrev cY : Rect S1024x9 := Rect.unit (s := S1024x9) ![0, 2] S1024x1.size inb_S1024x9_S1024x1_0_2
abbrev cSP : Rect S1024x9 := Rect.unit (s := S1024x9) ![0, 3] S1024x1.size inb_S1024x9_S1024x1_0_3
abbrev cP : Rect S1024x9 := Rect.unit (s := S1024x9) ![0, 4] S1024x1.size inb_S1024x9_S1024x1_0_4
abbrev cPCH : Rect S1024x9 := Rect.unit (s := S1024x9) ![0, 5] S1024x1.size inb_S1024x9_S1024x1_0_5
abbrev cPCL : Rect S1024x9 := Rect.unit (s := S1024x9) ![0, 6] S1024x1.size inb_S1024x9_S1024x1_0_6
abbrev cOp : Rect S1024x9 := Rect.unit (s := S1024x9) ![0, 7] S1024x1.size inb_S1024x9_S1024x1_0_7
abbrev cVal : Rect S1024x9 := Rect.unit (s := S1024x9) ![0, 8] S1024x1.size inb_S1024x9_S1024x1_0_8

abbrev mk0 : Rect S256x5 := Rect.unit (s := S256x5) ![0, 0] S256x1.size inb_S256x5_S256x1_0_0
abbrev mk1 : Rect S256x5 := Rect.unit (s := S256x5) ![0, 1] S256x1.size inb_S256x5_S256x1_0_1
abbrev mk2 : Rect S256x5 := Rect.unit (s := S256x5) ![0, 2] S256x1.size inb_S256x5_S256x1_0_2
abbrev mk3 : Rect S256x5 := Rect.unit (s := S256x5) ![0, 3] S256x1.size inb_S256x5_S256x1_0_3
abbrev mk4 : Rect S256x5 := Rect.unit (s := S256x5) ![0, 4] S256x1.size inb_S256x5_S256x1_0_4

abbrev s4_0 : Rect S4x256x512 := Rect.unit (s := S4x256x512) ![0, 0, 0] S1x256x512.size inb_S4x256x512_S1x256x512_0_0_0
abbrev s4_1 : Rect S4x256x512 := Rect.unit (s := S4x256x512) ![1, 0, 0] S1x256x512.size inb_S4x256x512_S1x256x512_1_0_0
abbrev s4_2 : Rect S4x256x512 := Rect.unit (s := S4x256x512) ![2, 0, 0] S1x256x512.size inb_S4x256x512_S1x256x512_2_0_0
abbrev s4_3 : Rect S4x256x512 := Rect.unit (s := S4x256x512) ![3, 0, 0] S1x256x512.size inb_S4x256x512_S1x256x512_3_0_0
abbrev s5_0 : Rect S5x256x512 := Rect.unit (s := S5x256x512) ![0, 0, 0] S1x256x512.size inb_S5x256x512_S1x256x512_0_0_0
abbrev s5_1 : Rect S5x256x512 := Rect.unit (s := S5x256x512) ![1, 0, 0] S1x256x512.size inb_S5x256x512_S1x256x512_1_0_0
abbrev s5_2 : Rect S5x256x512 := Rect.unit (s := S5x256x512) ![2, 0, 0] S1x256x512.size inb_S5x256x512_S1x256x512_2_0_0
abbrev s5_3 : Rect S5x256x512 := Rect.unit (s := S5x256x512) ![3, 0, 0] S1x256x512.size inb_S5x256x512_S1x256x512_3_0_0
abbrev s5_4 : Rect S5x256x512 := Rect.unit (s := S5x256x512) ![4, 0, 0] S1x256x512.size inb_S5x256x512_S1x256x512_4_0_0
abbrev s6_0 : Rect S6x256x512 := Rect.unit (s := S6x256x512) ![0, 0, 0] S1x256x512.size inb_S6x256x512_S1x256x512_0_0_0
abbrev s6_1 : Rect S6x256x512 := Rect.unit (s := S6x256x512) ![1, 0, 0] S1x256x512.size inb_S6x256x512_S1x256x512_1_0_0
abbrev s6_2 : Rect S6x256x512 := Rect.unit (s := S6x256x512) ![2, 0, 0] S1x256x512.size inb_S6x256x512_S1x256x512_2_0_0
abbrev s6_3 : Rect S6x256x512 := Rect.unit (s := S6x256x512) ![3, 0, 0] S1x256x512.size inb_S6x256x512_S1x256x512_3_0_0
abbrev s6_4 : Rect S6x256x512 := Rect.unit (s := S6x256x512) ![4, 0, 0] S1x256x512.size inb_S6x256x512_S1x256x512_4_0_0
abbrev s6_5 : Rect S6x256x512 := Rect.unit (s := S6x256x512) ![5, 0, 0] S1x256x512.size inb_S6x256x512_S1x256x512_5_0_0

abbrev rB : Rect S512 := Rect.unit (s := S512) ![0] S512.size inb_S512_S512_0
abbrev rW264 : Rect S512x264 := Rect.unit (s := S512x264) ![0, 0] S512x264.size inb_S512x264_S512x264_0_0
abbrev rW256 : Rect S512x256 := Rect.unit (s := S512x256) ![0, 0] S512x256.size inb_S512x256_S512x256_0_0

abbrev oAlu : Rect S1024x1296 := Rect.unit (s := S1024x1296) ![0, 0] S1024x264.size inb_S1024x1296_S1024x264_0_0
abbrev oLogic : Rect S1024x1296 := Rect.unit (s := S1024x1296) ![0, 264] S1024x264.size inb_S1024x1296_S1024x264_0_264
abbrev oMove : Rect S1024x1296 := Rect.unit (s := S1024x1296) ![0, 528] S1024x256.size inb_S1024x1296_S1024x256_0_528
abbrev oFlow : Rect S1024x1296 := Rect.unit (s := S1024x1296) ![0, 784] S1024x256.size inb_S1024x1296_S1024x256_0_784
abbrev oStack : Rect S1024x1296 := Rect.unit (s := S1024x1296) ![0, 1040] S1024x256.size inb_S1024x1296_S1024x256_0_1040

def pieceAlu (x0 : Vec F S1024x9 .i32) (x1 : Vec F S256x5 .bf16) (x2 : Vec F S4x256x512 .bf16) (x3 : Vec F S512 .f32)
    (x4 : Vec F S512x264 .bf16) : FVec F S1024x264 .f32 :=
  aluOf (View.ld x0 cOp) (View.ld x0 cA) (View.ld x0 cVal) (View.ld x0 cP) (View.ld x1 mk0)
    (View.ld x2 s4_0) (View.ld x2 s4_1) (View.ld x2 s4_2) (View.ld x2 s4_3) (View.ld x3 rB) (View.ld x4 rW264)

def pieceLogic (x0 : Vec F S1024x9 .i32) (x1 : Vec F S256x5 .bf16) (x5 : Vec F S4x256x512 .bf16) (x6 : Vec F S512 .f32)
    (x7 : Vec F S512x264 .bf16) : FVec F S1024x264 .f32 :=
  logicOf (View.ld x0 cOp) (View.ld x0 cA) (View.ld x0 cVal) (View.ld x0 cP) (View.ld x1 mk1)
    (View.ld x5 s4_0) (View.ld x5 s4_1) (View.ld x5 s4_2) (View.ld x5 s4_3) (View.ld x6 rB) (View.ld x7 rW264)

def pieceMove (x0 : Vec F S1024x9 .i32) (x1 : Vec F S256x5 .bf16) (x8 : Vec F S5x256x512 .bf16) (x9 : Vec F S512 .f32)
    (x10 : Vec F S512x256 .bf16) : FVec F S1024x256 .f32 :=
  moveOf (View.ld x0 cOp) (View.ld x0 cA) (View.ld x0 cX) (View.ld x0 cY) (View.ld x0 cVal) (View.ld x1 mk2)
    (View.ld x8 s5_0) (View.ld x8 s5_1) (View.ld x8 s5_2) (View.ld x8 s5_3) (View.ld x8 s5_4) (View.ld x9 rB) (View.ld x10 rW256)

def pieceFlow (x0 : Vec F S1024x9 .i32) (x1 : Vec F S256x5 .bf16) (x11 : Vec F S6x256x512 .bf16) (x12 : Vec F S512 .f32)
    (x13 : Vec F S512x256 .bf16) : FVec F S1024x256 .f32 :=
  flowOf (View.ld x0 cOp) (View.ld x0 cPCH) (View.ld x0 cPCL) (View.ld x0 cP) (View.ld x0 cVal) (View.ld x0 cSP) (View.ld x1 mk3)
    (View.ld x11 s6_0) (View.ld x11 s6_1) (View.ld x11 s6_2) (View.ld x11 s6_3) (View.ld x11 s6_4) (View.ld x11 s6_5)
    (View.ld x12 rB) (View.ld x13 rW256)

def pieceStack (x0 : Vec F S1024x9 .i32) (x1 : Vec F S256x5 .bf16) (x14 : Vec F S6x256x512 .bf16) (x15 : Vec F S512 .f32)
    (x16 : Vec F S512x256 .bf16) : FVec F S1024x256 .f32 :=
  stackOf (View.ld x0 cOp) (View.ld x0 cA) (View.ld x0 cX) (View.ld x0 cSP) (View.ld x0 cP) (View.ld x0 cVal) (View.ld x1 mk4)
    (View.ld x14 s6_0) (View.ld x14 s6_1) (View.ld x14 s6_2) (View.ld x14 s6_3) (View.ld x14 s6_4) (View.ld x14 s6_5)
    (View.ld x15 rB) (View.ld x16 rW256)

def out0_17 (x0 : Vec F S1024x9 .i32) (x1 : Vec F S256x5 .bf16)
    (x2 : Vec F S4x256x512 .bf16) (x3 : Vec F S512 .f32) (x4 : Vec F S512x264 .bf16)
    (x5 : Vec F S4x256x512 .bf16) (x6 : Vec F S512 .f32) (x7 : Vec F S512x264 .bf16)
    (x8 : Vec F S5x256x512 .bf16) (x9 : Vec F S512 .f32) (x10 : Vec F S512x256 .bf16)
    (x11 : Vec F S6x256x512 .bf16) (x12 : Vec F S512 .f32) (x13 : Vec F S512x256 .bf16)
    (x14 : Vec F S6x256x512 .bf16) (x15 : Vec F S512 .f32) (x16 : Vec F S512x256 .bf16) : Vec F S1024x1296 .f32 :=
  View.canon [⟨oStack, pieceStack x0 x1 x14 x15 x16⟩, ⟨oFlow, pieceFlow x0 x1 x11 x12 x13⟩, ⟨oMove, pieceMove x0 x1 x8 x9 x10⟩,
    ⟨oLogic, pieceLogic x0 x1 x5 x6 x7⟩, ⟨oAlu, pieceAlu x0 x1 x2 x3 x4⟩]

end Cert.Kernel.Hand

end
-- ==== Proof.KBody.lean ====
import proofs.«403230_j21208548507705_2_alg».proof.Proof.KPieces
import proofs.«403230_j21208548507705_2_alg».proof.Proof.Gen.Kernel.Launch
import Idealize.ShloMosaic.Lib.Pipeline.FrameBody
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem cover0_17 (p0 : Vec F S1024x256 .f32) (p1 : Vec F S1024x256 .f32) (p2 : Vec F S1024x256 .f32)
    (p3 : Vec F S1024x264 .f32) (p4 : Vec F S1024x264 .f32) (y : S1024x1296.Idx) :
    ∃ pc ∈ ([⟨oStack, p0⟩, ⟨oFlow, p1⟩, ⟨oMove, p2⟩, ⟨oLogic, p3⟩, ⟨oAlu, p4⟩] : List (View.Piece (Elt F) S1024x1296 .f32)), y ∈ pc.1.set :=
  View.cover_of_tiledBy [⟨oStack, p0⟩, ⟨oFlow, p1⟩, ⟨oMove, p2⟩, ⟨oLogic, p3⟩, ⟨oAlu, p4⟩] ![1024, 8] (by sl_kernel_rfl) y

set_option maxHeartbeats 1000000 in

theorem sound_kernel (c : Dev nD) (E : Set ℕ) (i : grid0.Coords) (arg1 : Memref sig .tc .vmem S1024x9 .i32) (harg1 : arg1.IsWhole) (arg2 : Memref sig .tc .vmem S256x5 .bf16) (harg2 : arg2.IsWhole) (arg3 : Memref sig .tc .vmem S4x256x512 .bf16) (harg3 : arg3.IsWhole) (arg4 : Memref sig .tc .vmem S512 .f32) (harg4 : arg4.IsWhole) (arg5 : Memref sig .tc .vmem S512x264 .bf16) (harg5 : arg5.IsWhole) (arg6 : Memref sig .tc .vmem S4x256x512 .bf16) (harg6 : arg6.IsWhole) (arg7 : Memref sig .tc .vmem S512 .f32) (harg7 : arg7.IsWhole) (arg8 : Memref sig .tc .vmem S512x264 .bf16) (harg8 : arg8.IsWhole) (arg9 : Memref sig .tc .vmem S5x256x512 .bf16) (harg9 : arg9.IsWhole) (arg10 : Memref sig .tc .vmem S512 .f32) (harg10 : arg10.IsWhole) (arg11 : Memref sig .tc .vmem S512x256 .bf16) (harg11 : arg11.IsWhole) (arg12 : Memref sig .tc .vmem S6x256x512 .bf16) (harg12 : arg12.IsWhole) (arg13 : Memref sig .tc .vmem S512 .f32) (harg13 : arg13.IsWhole) (arg14 : Memref sig .tc .vmem S512x256 .bf16) (harg14 : arg14.IsWhole) (arg15 : Memref sig .tc .vmem S6x256x512 .bf16) (harg15 : arg15.IsWhole) (arg16 : Memref sig .tc .vmem S512 .f32) (harg16 : arg16.IsWhole) (arg17 : Memref sig .tc .vmem S512x256 .bf16) (harg17 : arg17.IsWhole) (arg18 : Memref sig .tc .vmem S1024x1296 .f32) (harg18 : arg18.IsWhole)
    (x0 : Vec F S1024x9 .i32) (x1 : Vec F S256x5 .bf16) (x2 : Vec F S4x256x512 .bf16) (x3 : Vec F S512 .f32) (x4 : Vec F S512x264 .bf16) (x5 : Vec F S4x256x512 .bf16) (x6 : Vec F S512 .f32) (x7 : Vec F S512x264 .bf16) (x8 : Vec F S5x256x512 .bf16) (x9 : Vec F S512 .f32) (x10 : Vec F S512x256 .bf16) (x11 : Vec F S6x256x512 .bf16) (x12 : Vec F S512 .f32) (x13 : Vec F S512x256 .bf16) (x14 : Vec F S6x256x512 .bf16) (x15 : Vec F S512 .f32) (x16 : Vec F S512x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16)) -∗ K ⟨⟩))
      ⊢ wp frame (wpE (defs₀ (F := F)) Variants.none c none) E (cc0__moe_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (cover0_17 _ _ _ _ _)

end Cert.Kernel.Hand

end
-- ==== Proof.KRun.lean ====
import proofs.«403230_j21208548507705_2_alg».proof.Proof.KPrefix
import proofs.«403230_j21208548507705_2_alg».proof.Proof.KBody
import proofs.«403230_j21208548507705_2_alg».proof.Proof.Gen.Kernel.Points

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD, ArgsKept m r.2.mem c) :=
  frame_of m ρ (dats m) (A_eq m) (run_main m ρ)

end Cert.Kernel.Hand

end
-- ==== Proof.KIPrefix.lean ====
import proofs.«403230_j21208548507705_2_alg».proof.Proof.Gen.KernelIdeal.Launch
import proofs.«403230_j21208548507705_2_alg».proof.Proof.Gen.KernelIdeal.Points
import Idealize.ShloMosaic.Lib.Pipeline.FrameBody
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

abbrev hostOps0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178]

-- Host operation `k` writes its own result `main_vk` and nothing else.
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

-- A buffer no host operation writes enters the region as launched.
theorem V_of (c : Dev nD) (r : Ref sig .tc) (h : r ∉ hostOps0_W) : V m c r = m ((c : Thread nD τ).loc r) :=
  StableHlo.after_of_writes_sub hostOps0 _ hostOps0_writes h

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ArgsKept (mem : (ℓ : Loc nD τ sig) → Buf (Elt F) ℓ) (c : Dev nD) : Prop :=
  mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)
    ∧ mem ((c.tc : Thread nD τ).loc main_arg7) = m ((c.tc : Thread nD τ).loc main_arg7)
    ∧ mem ((c.tc : Thread nD τ).loc main_arg8) = m ((c.tc : Thread nD τ).loc main_arg8)
    ∧ mem ((c.tc : Thread nD τ).loc main_arg9) = m ((c.tc : Thread nD τ).loc main_arg9)
    ∧ mem ((c.tc : Thread nD τ).loc main_arg10) = m ((c.tc : Thread nD τ).loc main_arg10)
    ∧ mem ((c.tc : Thread nD τ).loc main_arg11) = m ((c.tc : Thread nD τ).loc main_arg11)
    ∧ mem ((c.tc : Thread nD τ).loc main_arg12) = m ((c.tc : Thread nD τ).loc main_arg12)
    ∧ mem ((c.tc : Thread nD τ).loc main_arg13) = m ((c.tc : Thread nD τ).loc main_arg13)
    ∧ mem ((c.tc : Thread nD τ).loc main_arg14) = m ((c.tc : Thread nD τ).loc main_arg14)
    ∧ mem ((c.tc : Thread nD τ).loc main_arg15) = m ((c.tc : Thread nD τ).loc main_arg15)
    ∧ mem ((c.tc : Thread nD τ).loc main_arg16) = m ((c.tc : Thread nD τ).loc main_arg16)
    ∧ mem ((c.tc : Thread nD τ).loc main_arg17) = m ((c.tc : Thread nD τ).loc main_arg17)
    ∧ mem ((c.tc : Thread nD τ).loc main_arg18) = m ((c.tc : Thread nD τ).loc main_arg18)
    ∧ mem ((c.tc : Thread nD τ).loc main_arg19) = m ((c.tc : Thread nD τ).loc main_arg19)
    ∧ mem ((c.tc : Thread nD τ).loc main_arg20) = m ((c.tc : Thread nD τ).loc main_arg20)
    ∧ mem ((c.tc : Thread nD τ).loc main_arg21) = m ((c.tc : Thread nD τ).loc main_arg21)
    ∧ mem ((c.tc : Thread nD τ).loc main_arg22) = m ((c.tc : Thread nD τ).loc main_arg22)
    ∧ mem ((c.tc : Thread nD τ).loc main_arg23) = m ((c.tc : Thread nD τ).loc main_arg23)
    ∧ mem ((c.tc : Thread nD τ).loc main_arg24) = m ((c.tc : Thread nD τ).loc main_arg24)
    ∧ mem ((c.tc : Thread nD τ).loc main_arg25) = m ((c.tc : Thread nD τ).loc main_arg25)
    ∧ mem ((c.tc : Thread nD τ).loc main_arg26) = m ((c.tc : Thread nD τ).loc main_arg26)
    ∧ mem ((c.tc : Thread nD τ).loc main_arg27) = m ((c.tc : Thread nD τ).loc main_arg27)
    ∧ mem ((c.tc : Thread nD τ).loc main_arg28) = m ((c.tc : Thread nD τ).loc main_arg28)
    ∧ mem ((c.tc : Thread nD τ).loc main_arg29) = m ((c.tc : Thread nD τ).loc main_arg29)
    ∧ mem ((c.tc : Thread nD τ).loc main_arg30) = m ((c.tc : Thread nD τ).loc main_arg30)
    ∧ mem ((c.tc : Thread nD τ).loc main_arg31) = m ((c.tc : Thread nD τ).loc main_arg31)

-- No host operation writes an argument, and the region changes only its result array.
theorem kept_of (dats : (p : Fin 1) → (c : Dev nD) → Dat τ (Elt F) Unit ℕ (UR sig nD τ) ℕ (cfgs p) c)
    (hA : ∀ c w, (dats 0 c).A w = V m c (Pipeline.arrRef spec0 w)) {r : PUnit × MemSt nD τ sig (Elt F)}
    (h : Pipeline.FramePost cfgs dats 0 (V m) r) (c : Dev nD) : ArgsKept m r.2.mem c := by
  have staged : ∀ w : Fin cfg0.W, (cfg0.win w).isOut = false → Pipeline.arrRef spec0 w ∉ hostOps0_W →
      r.2.mem ((c.tc : Thread nD τ).loc (Pipeline.arrRef spec0 w)) = m ((c.tc : Thread nD τ).loc (Pipeline.arrRef spec0 w)) :=
    fun w hw hb => ((h c).1 w).trans (((dats 0 c).arrAt_in w hw _).trans ((hA c w).trans (V_of m c _ hb)))
  repeat' apply And.intro
  all_goals first
    | exact ((h c).2 _ (Pipeline.mem_restRefs_of _ (by decide) (by decide))).trans (V_of m c _ (by decide))
    | exact staged 3 rfl (by decide) | exact staged 6 rfl (by decide) | exact staged 9 rfl (by decide)
    | exact staged 12 rfl (by decide) | exact staged 15 rfl (by decide)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD, ArgsKept m r.2.mem c) :=
  (θ_run defs _ _).mono (fun _ h c => kept_of m dats hA h c) h

end Cert.KernelIdeal.Hand

end
-- ==== Proof.KIPieces.lean ====
import proofs.«403230_j21208548507705_2_alg».proof.Proof.Gen.KernelIdeal.Skeleton
import Idealize.ShloMosaic.Lib.Pipeline.FrameBody

noncomputable section

namespace Cert.KernelIdeal.Hand

open Idealize.ShloMosaic Idealize.ShloMosaic.TcCoe Idealize.SL.Sem
open Cert.KernelIdeal Cert.KernelIdeal.Gen

variable {F : FTy → Type} [FloatOps F]

abbrev lanes : IVec S1024x256 32 := iota .tc S1024x256 32 [1] iota_S1024x256_d1_w32

def aluOf (op a val p : Vec F S1024x1 .i32) (mk : Vec F S256x1 .bf16) (t0 t1 t2 t3 : Vec F S1x256x512 .bf16)
    (b : Vec F S512 .f32) (w : Vec F S512x264 .bf16) : FVec F S1024x264 .f32 :=
  k0_pay11 (k0_pay3 op mk) (k0_pay9 lanes (k0_pay2 op) (k0_pay8 a t0) val t1 p t2 t3 b)
    (k0_pay10 lanes (k0_pay2 op) (k0_pay8 a t0) val t1 p t2 t3 b) w

def logicOf (op a val p : Vec F S1024x1 .i32) (mk : Vec F S256x1 .bf16) (t0 t1 t2 t3 : Vec F S1x256x512 .bf16)
    (b : Vec F S512 .f32) (w : Vec F S512x264 .bf16) : FVec F S1024x264 .f32 :=
  k0_pay14 lanes (k0_pay2 op) (k0_pay4 op mk) (k0_pay12 lanes a t0 val t1) (k0_pay13 p) t2 t3 b w

def moveOf (op a x y val : Vec F S1024x1 .i32) (mk : Vec F S256x1 .bf16) (t0 t1 t2 t3 t4 : Vec F S1x256x512 .bf16)
    (b : Vec F S512 .f32) (w : Vec F S512x256 .bf16) : FVec F S1024x256 .f32 :=
  k0_pay17 (k0_pay2 op) (k0_pay5 op mk) (k0_pay15 lanes (Scalar.ofBits .f32 0x00000000#32) a t0 x t1 y t2)
    (k0_pay16 lanes val) t3 t4 b w

def flowOf (op pch pcl p val sp : Vec F S1024x1 .i32) (mk : Vec F S256x1 .bf16) (t0 t1 t2 t3 t4 t5 : Vec F S1x256x512 .bf16)
    (b : Vec F S512 .f32) (w : Vec F S512x256 .bf16) : FVec F S1024x256 .f32 :=
  k0_pay23 lanes (k0_pay2 op) (k0_pay6 op mk) (k0_pay20 lanes (k0_pay18 (F := F)) (k0_pay19 lanes pch) t0 pcl t1 p t2)
    (k0_pay21 lanes val) (k0_pay22 t3) (constant S1024x512 .f32 0x00000000#32) sp t4 t5 b w

def stackOf (op a x sp p val : Vec F S1024x1 .i32) (mk : Vec F S256x1 .bf16) (t0 t1 t2 t3 t4 t5 : Vec F S1x256x512 .bf16)
    (b : Vec F S512 .f32) (w : Vec F S512x256 .bf16) : FVec F S1024x256 .f32 :=
  k0_pay1 (k0_pay7 op mk) (k0_pay26 lanes (k0_pay2 op) (k0_pay24 lanes a t0 x t1 sp t2) (k0_pay25 p) t3 val t4 t5 b) w

abbrev cA : Rect S1024x9 := Rect.unit (s := S1024x9) ![0, 0] S1024x1.size inb_S1024x9_S1024x1_0_0
abbrev cX : Rect S1024x9 := Rect.unit (s := S1024x9) ![0, 1] S1024x1.size inb_S1024x9_S1024x1_0_1
abbrev cY : Rect S1024x9 := Rect.unit (s := S1024x9) ![0, 2] S1024x1.size inb_S1024x9_S1024x1_0_2
abbrev cSP : Rect S1024x9 := Rect.unit (s := S1024x9) ![0, 3] S1024x1.size inb_S1024x9_S1024x1_0_3
abbrev cP : Rect S1024x9 := Rect.unit (s := S1024x9) ![0, 4] S1024x1.size inb_S1024x9_S1024x1_0_4
abbrev cPCH : Rect S1024x9 := Rect.unit (s := S1024x9) ![0, 5] S1024x1.size inb_S1024x9_S1024x1_0_5
abbrev cPCL : Rect S1024x9 := Rect.unit (s := S1024x9) ![0, 6] S1024x1.size inb_S1024x9_S1024x1_0_6
abbrev cOp : Rect S1024x9 := Rect.unit (s := S1024x9) ![0, 7] S1024x1.size inb_S1024x9_S1024x1_0_7
abbrev cVal : Rect S1024x9 := Rect.unit (s := S1024x9) ![0, 8] S1024x1.size inb_S1024x9_S1024x1_0_8

abbrev mk0 : Rect S256x5 := Rect.unit (s := S256x5) ![0, 0] S256x1.size inb_S256x5_S256x1_0_0
abbrev mk1 : Rect S256x5 := Rect.unit (s := S256x5) ![0, 1] S256x1.size inb_S256x5_S256x1_0_1
abbrev mk2 : Rect S256x5 := Rect.unit (s := S256x5) ![0, 2] S256x1.size inb_S256x5_S256x1_0_2
abbrev mk3 : Rect S256x5 := Rect.unit (s := S256x5) ![0, 3] S256x1.size inb_S256x5_S256x1_0_3
abbrev mk4 : Rect S256x5 := Rect.unit (s := S256x5) ![0, 4] S256x1.size inb_S256x5_S256x1_0_4

abbrev s4_0 : Rect S4x256x512 := Rect.unit (s := S4x256x512) ![0, 0, 0] S1x256x512.size inb_S4x256x512_S1x256x512_0_0_0
abbrev s4_1 : Rect S4x256x512 := Rect.unit (s := S4x256x512) ![1, 0, 0] S1x256x512.size inb_S4x256x512_S1x256x512_1_0_0
abbrev s4_2 : Rect S4x256x512 := Rect.unit (s := S4x256x512) ![2, 0, 0] S1x256x512.size inb_S4x256x512_S1x256x512_2_0_0
abbrev s4_3 : Rect S4x256x512 := Rect.unit (s := S4x256x512) ![3, 0, 0] S1x256x512.size inb_S4x256x512_S1x256x512_3_0_0
abbrev s5_0 : Rect S5x256x512 := Rect.unit (s := S5x256x512) ![0, 0, 0] S1x256x512.size inb_S5x256x512_S1x256x512_0_0_0
abbrev s5_1 : Rect S5x256x512 := Rect.unit (s := S5x256x512) ![1, 0, 0] S1x256x512.size inb_S5x256x512_S1x256x512_1_0_0
abbrev s5_2 : Rect S5x256x512 := Rect.unit (s := S5x256x512) ![2, 0, 0] S1x256x512.size inb_S5x256x512_S1x256x512_2_0_0
abbrev s5_3 : Rect S5x256x512 := Rect.unit (s := S5x256x512) ![3, 0, 0] S1x256x512.size inb_S5x256x512_S1x256x512_3_0_0
abbrev s5_4 : Rect S5x256x512 := Rect.unit (s := S5x256x512) ![4, 0, 0] S1x256x512.size inb_S5x256x512_S1x256x512_4_0_0
abbrev s6_0 : Rect S6x256x512 := Rect.unit (s := S6x256x512) ![0, 0, 0] S1x256x512.size inb_S6x256x512_S1x256x512_0_0_0
abbrev s6_1 : Rect S6x256x512 := Rect.unit (s := S6x256x512) ![1, 0, 0] S1x256x512.size inb_S6x256x512_S1x256x512_1_0_0
abbrev s6_2 : Rect S6x256x512 := Rect.unit (s := S6x256x512) ![2, 0, 0] S1x256x512.size inb_S6x256x512_S1x256x512_2_0_0
abbrev s6_3 : Rect S6x256x512 := Rect.unit (s := S6x256x512) ![3, 0, 0] S1x256x512.size inb_S6x256x512_S1x256x512_3_0_0
abbrev s6_4 : Rect S6x256x512 := Rect.unit (s := S6x256x512) ![4, 0, 0] S1x256x512.size inb_S6x256x512_S1x256x512_4_0_0
abbrev s6_5 : Rect S6x256x512 := Rect.unit (s := S6x256x512) ![5, 0, 0] S1x256x512.size inb_S6x256x512_S1x256x512_5_0_0

abbrev rB : Rect S512 := Rect.unit (s := S512) ![0] S512.size inb_S512_S512_0
abbrev rW264 : Rect S512x264 := Rect.unit (s := S512x264) ![0, 0] S512x264.size inb_S512x264_S512x264_0_0
abbrev rW256 : Rect S512x256 := Rect.unit (s := S512x256) ![0, 0] S512x256.size inb_S512x256_S512x256_0_0

abbrev oAlu : Rect S1024x1296 := Rect.unit (s := S1024x1296) ![0, 0] S1024x264.size inb_S1024x1296_S1024x264_0_0
abbrev oLogic : Rect S1024x1296 := Rect.unit (s := S1024x1296) ![0, 264] S1024x264.size inb_S1024x1296_S1024x264_0_264
abbrev oMove : Rect S1024x1296 := Rect.unit (s := S1024x1296) ![0, 528] S1024x256.size inb_S1024x1296_S1024x256_0_528
abbrev oFlow : Rect S1024x1296 := Rect.unit (s := S1024x1296) ![0, 784] S1024x256.size inb_S1024x1296_S1024x256_0_784
abbrev oStack : Rect S1024x1296 := Rect.unit (s := S1024x1296) ![0, 1040] S1024x256.size inb_S1024x1296_S1024x256_0_1040

def pieceAlu (x0 : Vec F S1024x9 .i32) (x1 : Vec F S256x5 .bf16) (x2 : Vec F S4x256x512 .bf16) (x3 : Vec F S512 .f32)
    (x4 : Vec F S512x264 .bf16) : FVec F S1024x264 .f32 :=
  aluOf (View.ld x0 cOp) (View.ld x0 cA) (View.ld x0 cVal) (View.ld x0 cP) (View.ld x1 mk0)
    (View.ld x2 s4_0) (View.ld x2 s4_1) (View.ld x2 s4_2) (View.ld x2 s4_3) (View.ld x3 rB) (View.ld x4 rW264)

def pieceLogic (x0 : Vec F S1024x9 .i32) (x1 : Vec F S256x5 .bf16) (x5 : Vec F S4x256x512 .bf16) (x6 : Vec F S512 .f32)
    (x7 : Vec F S512x264 .bf16) : FVec F S1024x264 .f32 :=
  logicOf (View.ld x0 cOp) (View.ld x0 cA) (View.ld x0 cVal) (View.ld x0 cP) (View.ld x1 mk1)
    (View.ld x5 s4_0) (View.ld x5 s4_1) (View.ld x5 s4_2) (View.ld x5 s4_3) (View.ld x6 rB) (View.ld x7 rW264)

def pieceMove (x0 : Vec F S1024x9 .i32) (x1 : Vec F S256x5 .bf16) (x8 : Vec F S5x256x512 .bf16) (x9 : Vec F S512 .f32)
    (x10 : Vec F S512x256 .bf16) : FVec F S1024x256 .f32 :=
  moveOf (View.ld x0 cOp) (View.ld x0 cA) (View.ld x0 cX) (View.ld x0 cY) (View.ld x0 cVal) (View.ld x1 mk2)
    (View.ld x8 s5_0) (View.ld x8 s5_1) (View.ld x8 s5_2) (View.ld x8 s5_3) (View.ld x8 s5_4) (View.ld x9 rB) (View.ld x10 rW256)

def pieceFlow (x0 : Vec F S1024x9 .i32) (x1 : Vec F S256x5 .bf16) (x11 : Vec F S6x256x512 .bf16) (x12 : Vec F S512 .f32)
    (x13 : Vec F S512x256 .bf16) : FVec F S1024x256 .f32 :=
  flowOf (View.ld x0 cOp) (View.ld x0 cPCH) (View.ld x0 cPCL) (View.ld x0 cP) (View.ld x0 cVal) (View.ld x0 cSP) (View.ld x1 mk3)
    (View.ld x11 s6_0) (View.ld x11 s6_1) (View.ld x11 s6_2) (View.ld x11 s6_3) (View.ld x11 s6_4) (View.ld x11 s6_5)
    (View.ld x12 rB) (View.ld x13 rW256)

def pieceStack (x0 : Vec F S1024x9 .i32) (x1 : Vec F S256x5 .bf16) (x14 : Vec F S6x256x512 .bf16) (x15 : Vec F S512 .f32)
    (x16 : Vec F S512x256 .bf16) : FVec F S1024x256 .f32 :=
  stackOf (View.ld x0 cOp) (View.ld x0 cA) (View.ld x0 cX) (View.ld x0 cSP) (View.ld x0 cP) (View.ld x0 cVal) (View.ld x1 mk4)
    (View.ld x14 s6_0) (View.ld x14 s6_1) (View.ld x14 s6_2) (View.ld x14 s6_3) (View.ld x14 s6_4) (View.ld x14 s6_5)
    (View.ld x15 rB) (View.ld x16 rW256)

def out0_17 (x0 : Vec F S1024x9 .i32) (x1 : Vec F S256x5 .bf16)
    (x2 : Vec F S4x256x512 .bf16) (x3 : Vec F S512 .f32) (x4 : Vec F S512x264 .bf16)
    (x5 : Vec F S4x256x512 .bf16) (x6 : Vec F S512 .f32) (x7 : Vec F S512x264 .bf16)
    (x8 : Vec F S5x256x512 .bf16) (x9 : Vec F S512 .f32) (x10 : Vec F S512x256 .bf16)
    (x11 : Vec F S6x256x512 .bf16) (x12 : Vec F S512 .f32) (x13 : Vec F S512x256 .bf16)
    (x14 : Vec F S6x256x512 .bf16) (x15 : Vec F S512 .f32) (x16 : Vec F S512x256 .bf16) : Vec F S1024x1296 .f32 :=
  View.canon [⟨oStack, pieceStack x0 x1 x14 x15 x16⟩, ⟨oFlow, pieceFlow x0 x1 x11 x12 x13⟩, ⟨oMove, pieceMove x0 x1 x8 x9 x10⟩,
    ⟨oLogic, pieceLogic x0 x1 x5 x6 x7⟩, ⟨oAlu, pieceAlu x0 x1 x2 x3 x4⟩]

end Cert.KernelIdeal.Hand

end
-- ==== Proof.KIBody.lean ====
import proofs.«403230_j21208548507705_2_alg».proof.Proof.KIPieces
import proofs.«403230_j21208548507705_2_alg».proof.Proof.Gen.KernelIdeal.Launch
import Idealize.ShloMosaic.Lib.Pipeline.FrameBody
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem cover0_17 (p0 : Vec F S1024x256 .f32) (p1 : Vec F S1024x256 .f32) (p2 : Vec F S1024x256 .f32)
    (p3 : Vec F S1024x264 .f32) (p4 : Vec F S1024x264 .f32) (y : S1024x1296.Idx) :
    ∃ pc ∈ ([⟨oStack, p0⟩, ⟨oFlow, p1⟩, ⟨oMove, p2⟩, ⟨oLogic, p3⟩, ⟨oAlu, p4⟩] : List (View.Piece (Elt F) S1024x1296 .f32)), y ∈ pc.1.set :=
  View.cover_of_tiledBy [⟨oStack, p0⟩, ⟨oFlow, p1⟩, ⟨oMove, p2⟩, ⟨oLogic, p3⟩, ⟨oAlu, p4⟩] ![1024, 8] (by sl_kernel_rfl) y

set_option maxHeartbeats 1000000 in

theorem sound_kernel (c : Dev nD) (E : Set ℕ) (i : grid0.Coords) (arg1 : Memref sig .tc .vmem S1024x9 .i32) (harg1 : arg1.IsWhole) (arg2 : Memref sig .tc .vmem S256x5 .bf16) (harg2 : arg2.IsWhole) (arg3 : Memref sig .tc .vmem S4x256x512 .bf16) (harg3 : arg3.IsWhole) (arg4 : Memref sig .tc .vmem S512 .f32) (harg4 : arg4.IsWhole) (arg5 : Memref sig .tc .vmem S512x264 .bf16) (harg5 : arg5.IsWhole) (arg6 : Memref sig .tc .vmem S4x256x512 .bf16) (harg6 : arg6.IsWhole) (arg7 : Memref sig .tc .vmem S512 .f32) (harg7 : arg7.IsWhole) (arg8 : Memref sig .tc .vmem S512x264 .bf16) (harg8 : arg8.IsWhole) (arg9 : Memref sig .tc .vmem S5x256x512 .bf16) (harg9 : arg9.IsWhole) (arg10 : Memref sig .tc .vmem S512 .f32) (harg10 : arg10.IsWhole) (arg11 : Memref sig .tc .vmem S512x256 .bf16) (harg11 : arg11.IsWhole) (arg12 : Memref sig .tc .vmem S6x256x512 .bf16) (harg12 : arg12.IsWhole) (arg13 : Memref sig .tc .vmem S512 .f32) (harg13 : arg13.IsWhole) (arg14 : Memref sig .tc .vmem S512x256 .bf16) (harg14 : arg14.IsWhole) (arg15 : Memref sig .tc .vmem S6x256x512 .bf16) (harg15 : arg15.IsWhole) (arg16 : Memref sig .tc .vmem S512 .f32) (harg16 : arg16.IsWhole) (arg17 : Memref sig .tc .vmem S512x256 .bf16) (harg17 : arg17.IsWhole) (arg18 : Memref sig .tc .vmem S1024x1296 .f32) (harg18 : arg18.IsWhole)
    (x0 : Vec F S1024x9 .i32) (x1 : Vec F S256x5 .bf16) (x2 : Vec F S4x256x512 .bf16) (x3 : Vec F S512 .f32) (x4 : Vec F S512x264 .bf16) (x5 : Vec F S4x256x512 .bf16) (x6 : Vec F S512 .f32) (x7 : Vec F S512x264 .bf16) (x8 : Vec F S5x256x512 .bf16) (x9 : Vec F S512 .f32) (x10 : Vec F S512x256 .bf16) (x11 : Vec F S6x256x512 .bf16) (x12 : Vec F S512 .f32) (x13 : Vec F S512x256 .bf16) (x14 : Vec F S6x256x512 .bf16) (x15 : Vec F S512 .f32) (x16 : Vec F S512x256 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16)) -∗ K ⟨⟩))
      ⊢ wp frame (wpE (defs₀ (F := F)) Variants.none c none) E (cc0__moe_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__moe_kernel_eq_skeleton]; unfold cc0__moe_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  iexists _; isplitr
  swap; · iexact H17
  ipureintro
  exact View.read_writes_eq_canon _ _ _ (cover0_17 _ _ _ _ _)

end Cert.KernelIdeal.Hand

end
-- ==== Proof.KIRun.lean ====
import proofs.«403230_j21208548507705_2_alg».proof.Proof.KIPrefix
import proofs.«403230_j21208548507705_2_alg».proof.Proof.KIBody
import proofs.«403230_j21208548507705_2_alg».proof.Proof.Gen.KernelIdeal.Points

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  iintro ⟨H0, H1, H2, H3, H4, H5, H6, H7, H8, H9, H10, H11, H12, H13, H14, H15, H16, H17⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD, ArgsKept m r.2.mem c) :=
  frame_of m ρ (dats m) (A_eq m) (run_main m ρ)

end Cert.KernelIdeal.Hand

end
-- ==== Proof.KIReads.lean ====
import proofs.«403230_j21208548507705_2_alg».proof.Proof.KIPrefix
import Idealize.ShloMosaic.Lib.Pipeline.Value
import Idealize.ShloMosaic.Lib.ValueIdx

noncomputable section

namespace Cert.KernelIdeal.Hand

open Idealize.ShloMosaic
open Idealize.ShloMosaic.ValueIdx
open Cert.KernelIdeal Cert.KernelIdeal.Gen

variable (m : (ℓ : Loc nD τ sig) → Buf (Elt Ideal) ℓ) (c : Dev nD)

theorem row_lt (t : Fin cfg0.N) (r : Fin 1024) : 1024 * t.val + r.val < 65536 := by
  have ht : t.val < 64 := (N_0 : cfg0.N = 64) ▸ t.isLt
  omega

-- An entry of a window's block at point `t` sits, on each axis, at the block index times the block size plus its own coordinate.
theorem blk_emb {G : Pipeline.Grid} (w : Pipeline.Window sig G) (t : Fin G.N) (y : (w.xblock (G.coords t)).Idx) (k : w.shape.Idx)
    (hk : ∀ a, (k a).val = w.index t a * w.size a + (y a).val) : (w.blk t).view.emb y = w.arr.view.emb k :=
  congrArg w.arr.view.emb (funext fun a => Fin.ext ((w.rect_emb_val t y a).trans (hk a).symm))

-- Every window's block offsets in closed form: the row window (0) and the output window (17) start `1024·t` rows down, every other block at zero.
abbrev off (w : Fin 18) (t a : Nat) : Nat := if (w.val = 0 ∨ w.val = 17) ∧ a = 0 then 1024 * t else 0

theorem off0 : ∀ (w : Fin 18) (t : Fin grid0.N) (a : Fin (win0 w).shape.rank),
    (win0 w).index t a * (win0 w).size a = off w t a := by decide +kernel

section
variable (w : Fin 18) (t : Fin grid0.N) (y : ((win0 w).xblock (grid0.coords t)).Idx) (k : (win0 w).shape.Idx)
  (hk : ∀ a, (k a).val = off w t a + (y a).val)
include hk

theorem emb_at : ((win0 w).blk t).view.emb y = (win0 w).arr.view.emb k :=
  blk_emb _ t y k fun a => (hk a).trans (congrArg (· + _) (off0 w t a).symm)

-- Read at `y`, block `t` of an array `A` is `A` at that place.
theorem read_at (A : ((win0 w).blk t).view.ty.Contents (Elt Ideal)) :
    HEq (((win0 w).blk t).view.read (Elt Ideal) A y) (A ((win0 w).arr.view.emb k)) := by
  rw [View.read_apply, emb_at w t y k hk]; exact cast_heq _ _

end

theorem iblk0_apply (t : Fin cfg0.N) (r : Fin 1024) (j : Fin 9) :
    (iblk m c 0 t : S1024x9.Idx → BitVec 32) (ix2 r j)
      = (V m c main_v9 : S65536x9.Idx → BitVec 32) (ix2 ⟨1024 * t.val + r.val, row_lt t r⟩ j) :=
  eq_of_heq (read_at 0 t (ix2 r j) _ (fun a => match a with | ⟨0, _⟩ => rfl | ⟨1, _⟩ => (Nat.zero_add _).symm) _)

theorem iblk1_eq (t : Fin cfg0.N) : (iblk m c 1 t : Vec Ideal S256x5 .bf16) = V m c main_v16 :=
  funext fun x => eq_of_heq (read_at 1 t x x (fun _ => (Nat.zero_add _).symm) _)
theorem iblk2_eq (t : Fin cfg0.N) : (iblk m c 2 t : Vec Ideal S4x256x512 .bf16) = V m c main_v41 :=
  funext fun x => eq_of_heq (read_at 2 t x x (fun _ => (Nat.zero_add _).symm) _)
theorem iblk3_eq (t : Fin cfg0.N) : (iblk m c 3 t : Vec Ideal S512 .f32) = V m c main_arg12 :=
  funext fun x => eq_of_heq (read_at 3 t x x (fun _ => (Nat.zero_add _).symm) _)
theorem iblk4_eq (t : Fin cfg0.N) : (iblk m c 4 t : Vec Ideal S512x264 .bf16) = V m c main_v173 :=
  funext fun x => eq_of_heq (read_at 4 t x x (fun _ => (Nat.zero_add _).symm) _)
theorem iblk5_eq (t : Fin cfg0.N) : (iblk m c 5 t : Vec Ideal S4x256x512 .bf16) = V m c main_v66 :=
  funext fun x => eq_of_heq (read_at 5 t x x (fun _ => (Nat.zero_add _).symm) _)
theorem iblk6_eq (t : Fin cfg0.N) : (iblk m c 6 t : Vec Ideal S512 .f32) = V m c main_arg17 :=
  funext fun x => eq_of_heq (read_at 6 t x x (fun _ => (Nat.zero_add _).symm) _)
theorem iblk7_eq (t : Fin cfg0.N) : (iblk m c 7 t : Vec Ideal S512x264 .bf16) = V m c main_v175 :=
  funext fun x => eq_of_heq (read_at 7 t x x (fun _ => (Nat.zero_add _).symm) _)
theorem iblk8_eq (t : Fin cfg0.N) : (iblk m c 8 t : Vec Ideal S5x256x512 .bf16) = V m c main_v97 :=
  funext fun x => eq_of_heq (read_at 8 t x x (fun _ => (Nat.zero_add _).symm) _)
theorem iblk9_eq (t : Fin cfg0.N) : (iblk m c 9 t : Vec Ideal S512 .f32) = V m c main_arg22 :=
  funext fun x => eq_of_heq (read_at 9 t x x (fun _ => (Nat.zero_add _).symm) _)
theorem iblk10_eq (t : Fin cfg0.N) : (iblk m c 10 t : Vec Ideal S512x256 .bf16) = V m c main_v176 :=
  funext fun x => eq_of_heq (read_at 10 t x x (fun _ => (Nat.zero_add _).symm) _)
theorem iblk11_eq (t : Fin cfg0.N) : (iblk m c 11 t : Vec Ideal S6x256x512 .bf16) = V m c main_v134 :=
  funext fun x => eq_of_heq (read_at 11 t x x (fun _ => (Nat.zero_add _).symm) _)
theorem iblk12_eq (t : Fin cfg0.N) : (iblk m c 12 t : Vec Ideal S512 .f32) = V m c main_arg26 :=
  funext fun x => eq_of_heq (read_at 12 t x x (fun _ => (Nat.zero_add _).symm) _)
theorem iblk13_eq (t : Fin cfg0.N) : (iblk m c 13 t : Vec Ideal S512x256 .bf16) = V m c main_v177 :=
  funext fun x => eq_of_heq (read_at 13 t x x (fun _ => (Nat.zero_add _).symm) _)
theorem iblk14_eq (t : Fin cfg0.N) : (iblk m c 14 t : Vec Ideal S6x256x512 .bf16) = V m c main_v171 :=
  funext fun x => eq_of_heq (read_at 14 t x x (fun _ => (Nat.zero_add _).symm) _)
theorem iblk15_eq (t : Fin cfg0.N) : (iblk m c 15 t : Vec Ideal S512 .f32) = V m c main_arg30 :=
  funext fun x => eq_of_heq (read_at 15 t x x (fun _ => (Nat.zero_add _).symm) _)
theorem iblk16_eq (t : Fin cfg0.N) : (iblk m c 16 t : Vec Ideal S512x256 .bf16) = V m c main_v178 :=
  funext fun x => eq_of_heq (read_at 16 t x x (fun _ => (Nat.zero_add _).symm) _)

theorem blk17_read (G : Vec Ideal S65536x1296 .f32) (t : Fin cfg0.N) (y : S1024x1296.Idx) :
    (((cfg0.win 17).blk t).view.read (Elt Ideal) G : Vec Ideal S1024x1296 .f32) y
      = G (ix2 ⟨1024 * t.val + (y 0).val, row_lt t (y 0)⟩ (y 1)) :=
  eq_of_heq (read_at 17 t y _ (fun a => match a with | ⟨0, _⟩ => rfl | ⟨1, _⟩ => (Nat.zero_add _).symm) G)

-- Row `n` of the result is entry `n mod 1024` of the block of point `n / 1024`.
theorem cover17 (i : S65536x1296.Idx) :
    ∃ t : Fin cfg0.N, (cfg0.win 17).flush t = true ∧ i ∈ ((cfg0.win 17).blk t).view.set := by
  have h0 : (i 0).val < 65536 := (i 0).isLt
  have hN : (i 0).val / 1024 < grid0.N := by rw [N_0]; omega
  have hm := Finset.mem_map_of_mem ((win0 17).blk ⟨_, hN⟩).view.emb
    (Finset.mem_univ (ix2 ⟨(i 0).val % 1024, Nat.mod_lt _ (by decide)⟩ (i 1) : S1024x1296.Idx))
  rw [emb_at 17 ⟨_, hN⟩ _ i fun a => match a with | ⟨0, _⟩ => (Nat.div_add_mod _ 1024).symm | ⟨1, _⟩ => (Nat.zero_add _).symm] at hm
  exact ⟨⟨_, hN⟩, flush0_17 _, hm⟩

end Cert.KernelIdeal.Hand

end
-- ==== Proof.KICanon.lean ====
import proofs.«403230_j21208548507705_2_alg».proof.Proof.KIPieces
import Idealize.ShloMosaic.Lib.ValueIdx
import Idealize.ShloMosaic.Lib.Pipeline.FrameBody
import Idealize.ShloMosaic.Lib.Pipeline.Value

noncomputable section

namespace Cert.KernelIdeal.Hand

open Idealize.ShloMosaic Idealize.ShloMosaic.ValueIdx Idealize.SL.Sem
open Cert.KernelIdeal Cert.KernelIdeal.Gen

variable {F : FTy → Type} [FloatOps F]

section Band
variable {n k w o : Nat} {inb : ∀ a, ![0, o] a + ![n, w] a ≤ (⟨2, ![n, k]⟩ : Shape).size a}
  (p : (⟨2, ![n, w]⟩ : Shape).Idx → Elt F .f32) (L : List (View.Piece (Elt F) ⟨2, ![n, k]⟩ .f32)) (r : Fin n) {c : Nat} (hc : c < k)

-- A band of columns `o … o + w - 1`, all rows, does not hold an entry whose column lies outside it.
theorem canon_band_miss (h : c < o ∨ o + w ≤ c) :
    View.canon (⟨Rect.unit ![0, o] ![n, w] inb, p⟩ :: L) (ix2 r ⟨c, hc⟩) = View.canon L (ix2 r ⟨c, hc⟩) :=
  View.canon_cons_of_not_mem _ _ fun hm => by
    have h1 : o ≤ c ∧ c < o + w := (Rect.mem_set_unit (inb := inb)).mp hm 1
    omega

-- It holds the entry at column `o + col`, as its payload's entry at column `col`.
theorem canon_band_hit (col : Fin w) (h : c = o + col.val) :
    View.canon (⟨Rect.unit ![0, o] ![n, w] inb, p⟩ :: L) (ix2 r ⟨c, hc⟩) = p (ix2 r col) := by
  rw [show (ix2 r ⟨c, hc⟩ : (⟨2, ![n, k]⟩ : Shape).Idx) = (Rect.unit ![0, o] ![n, w] inb).emb (ix2 r col) from
    Shape.idx_ext₂ (show r.val = 0 + 1 * r.val by omega) (show c = o + 1 * col.val by omega)]
  exact View.canon_cons_emb (Rect.unit (s := ⟨2, ![n, k]⟩) ![0, o] ![n, w] inb) p L (ix2 r col)

end Band

variable (x0 : Vec F S1024x9 .i32) (x1 : Vec F S256x5 .bf16)
  (x2 : Vec F S4x256x512 .bf16) (x3 : Vec F S512 .f32) (x4 : Vec F S512x264 .bf16)
  (x5 : Vec F S4x256x512 .bf16) (x6 : Vec F S512 .f32) (x7 : Vec F S512x264 .bf16)
  (x8 : Vec F S5x256x512 .bf16) (x9 : Vec F S512 .f32) (x10 : Vec F S512x256 .bf16)
  (x11 : Vec F S6x256x512 .bf16) (x12 : Vec F S512 .f32) (x13 : Vec F S512x256 .bf16)
  (x14 : Vec F S6x256x512 .bf16) (x15 : Vec F S512 .f32) (x16 : Vec F S512x256 .bf16) (r : Fin 1024)

theorem out0_17_alu (col : Fin 264) :
    out0_17 x0 x1 x2 x3 x4 x5 x6 x7 x8 x9 x10 x11 x12 x13 x14 x15 x16 (ix2 r ⟨col.val, by have := col.isLt; omega⟩) = pieceAlu x0 x1 x2 x3 x4 (ix2 r col) := by
  unfold out0_17
  rw [canon_band_miss, canon_band_miss, canon_band_miss, canon_band_miss, canon_band_hit (col := col)] <;> omega

theorem out0_17_logic (col : Fin 264) :
    out0_17 x0 x1 x2 x3 x4 x5 x6 x7 x8 x9 x10 x11 x12 x13 x14 x15 x16 (ix2 r ⟨264 + col.val, by have := col.isLt; omega⟩) = pieceLogic x0 x1 x5 x6 x7 (ix2 r col) := by
  unfold out0_17
  rw [canon_band_miss, canon_band_miss, canon_band_miss, canon_band_hit (col := col)] <;> omega

theorem out0_17_move (col : Fin 256) :
    out0_17 x0 x1 x2 x3 x4 x5 x6 x7 x8 x9 x10 x11 x12 x13 x14 x15 x16 (ix2 r ⟨528 + col.val, by have := col.isLt; omega⟩) = pieceMove x0 x1 x8 x9 x10 (ix2 r col) := by
  unfold out0_17
  rw [canon_band_miss, canon_band_miss, canon_band_hit (col := col)] <;> omega

theorem out0_17_flow (col : Fin 256) :
    out0_17 x0 x1 x2 x3 x4 x5 x6 x7 x8 x9 x10 x11 x12 x13 x14 x15 x16 (ix2 r ⟨784 + col.val, by have := col.isLt; omega⟩) = pieceFlow x0 x1 x11 x12 x13 (ix2 r col) := by
  unfold out0_17
  rw [canon_band_miss, canon_band_hit (col := col)] <;> omega

theorem out0_17_stack (col : Fin 256) :
    out0_17 x0 x1 x2 x3 x4 x5 x6 x7 x8 x9 x10 x11 x12 x13 x14 x15 x16 (ix2 r ⟨1040 + col.val, by have := col.isLt; omega⟩) = pieceStack x0 x1 x14 x15 x16 (ix2 r col) := by
  unfold out0_17
  rw [canon_band_hit (col := col)] <;> omega

end Cert.KernelIdeal.Hand

end
-- ==== Proof.KILoads.lean ====
import proofs.«403230_j21208548507705_2_alg».proof.Proof.KIPieces
import Idealize.ShloMosaic.Lib.ValueIdx
import Idealize.ShloMosaic.Lib.Pipeline.Value

noncomputable section

namespace Cert.KernelIdeal.Hand

open Idealize.ShloMosaic Idealize.ShloMosaic.ValueIdx
open Cert.KernelIdeal Cert.KernelIdeal.Gen

variable {Val : EltTy → Type} {e : EltTy}

-- A unit-stride rectangle places its local index at the offset plus that index, axis by axis.
theorem ld_unit {S : Shape} (X : S.Idx → Val e) {off size : Fin S.rank → Nat} {inb : ∀ a, off a + size a ≤ S.size a}
    {x : (⟨S.rank, size⟩ : Shape).Idx} {y : S.Idx} (h : ∀ a, (y a).val = off a + (x a).val) :
    View.ld X (Rect.unit off size inb) x = X y :=
  congrArg X (funext fun a => Fin.ext (by have := h a; show off a + 1 * (x a).val = (y a).val; omega))

theorem ld_col {n k : Nat} (X : (⟨2, ![n, k]⟩ : Shape).Idx → Val e) (j : Fin k) {inb} (r : Fin n) :
    View.ld X (Rect.unit ![0, j.val] ![n, 1] inb) (ix2 r 0) = X (ix2 r j) :=
  ld_unit X fun a => match a with | ⟨0, _⟩ => (Nat.zero_add _).symm | ⟨1, _⟩ => rfl

theorem ld_slab {k n p : Nat} (X : (⟨3, ![k, n, p]⟩ : Shape).Idx → Val e) (i : Fin k) {inb} (v : Fin n) (h : Fin p) :
    View.ld X (Rect.unit ![i.val, 0, 0] ![1, n, p] inb) (ix3 0 v h) = X (ix3 i v h) :=
  ld_unit X fun a => match a with | ⟨0, _⟩ => rfl | ⟨1, _⟩ => (Nat.zero_add _).symm | ⟨2, _⟩ => (Nat.zero_add _).symm

section
variable (x : Vec Ideal S1024x9 .i32) (r : Fin 1024)
theorem ld_cA : View.ld x cA (ix2 r 0) = x (ix2 r 0) := ld_col x 0 r
theorem ld_cX : View.ld x cX (ix2 r 0) = x (ix2 r 1) := ld_col x 1 r
theorem ld_cY : View.ld x cY (ix2 r 0) = x (ix2 r 2) := ld_col x 2 r
theorem ld_cSP : View.ld x cSP (ix2 r 0) = x (ix2 r 3) := ld_col x 3 r
theorem ld_cP : View.ld x cP (ix2 r 0) = x (ix2 r 4) := ld_col x 4 r
theorem ld_cPCH : View.ld x cPCH (ix2 r 0) = x (ix2 r 5) := ld_col x 5 r
theorem ld_cPCL : View.ld x cPCL (ix2 r 0) = x (ix2 r 6) := ld_col x 6 r
theorem ld_cOp : View.ld x cOp (ix2 r 0) = x (ix2 r 7) := ld_col x 7 r
theorem ld_cVal : View.ld x cVal (ix2 r 0) = x (ix2 r 8) := ld_col x 8 r
end

section
variable (x : Vec Ideal S256x5 .bf16) (v : Fin 256)
theorem ld_mk0 : View.ld x mk0 (ix2 v 0) = x (ix2 v 0) := ld_col x 0 v
theorem ld_mk1 : View.ld x mk1 (ix2 v 0) = x (ix2 v 1) := ld_col x 1 v
theorem ld_mk2 : View.ld x mk2 (ix2 v 0) = x (ix2 v 2) := ld_col x 2 v
theorem ld_mk3 : View.ld x mk3 (ix2 v 0) = x (ix2 v 3) := ld_col x 3 v
theorem ld_mk4 : View.ld x mk4 (ix2 v 0) = x (ix2 v 4) := ld_col x 4 v
end

section
variable (x : Vec Ideal S4x256x512 .bf16) (v : Fin 256) (h : Fin 512)
theorem ld_s4_0 : View.ld x s4_0 (ix3 0 v h) = x (ix3 0 v h) := ld_slab x 0 v h
theorem ld_s4_1 : View.ld x s4_1 (ix3 0 v h) = x (ix3 1 v h) := ld_slab x 1 v h
theorem ld_s4_2 : View.ld x s4_2 (ix3 0 v h) = x (ix3 2 v h) := ld_slab x 2 v h
theorem ld_s4_3 : View.ld x s4_3 (ix3 0 v h) = x (ix3 3 v h) := ld_slab x 3 v h
end

section
variable (x : Vec Ideal S5x256x512 .bf16) (v : Fin 256) (h : Fin 512)
theorem ld_s5_0 : View.ld x s5_0 (ix3 0 v h) = x (ix3 0 v h) := ld_slab x 0 v h
theorem ld_s5_1 : View.ld x s5_1 (ix3 0 v h) = x (ix3 1 v h) := ld_slab x 1 v h
theorem ld_s5_2 : View.ld x s5_2 (ix3 0 v h) = x (ix3 2 v h) := ld_slab x 2 v h
theorem ld_s5_3 : View.ld x s5_3 (ix3 0 v h) = x (ix3 3 v h) := ld_slab x 3 v h
theorem ld_s5_4 : View.ld x s5_4 (ix3 0 v h) = x (ix3 4 v h) := ld_slab x 4 v h
end

section
variable (x : Vec Ideal S6x256x512 .bf16) (v : Fin 256) (h : Fin 512)
theorem ld_s6_0 : View.ld x s6_0 (ix3 0 v h) = x (ix3 0 v h) := ld_slab x 0 v h
theorem ld_s6_1 : View.ld x s6_1 (ix3 0 v h) = x (ix3 1 v h) := ld_slab x 1 v h
theorem ld_s6_2 : View.ld x s6_2 (ix3 0 v h) = x (ix3 2 v h) := ld_slab x 2 v h
theorem ld_s6_3 : View.ld x s6_3 (ix3 0 v h) = x (ix3 3 v h) := ld_slab x 3 v h
theorem ld_s6_4 : View.ld x s6_4 (ix3 0 v h) = x (ix3 4 v h) := ld_slab x 4 v h
theorem ld_s6_5 : View.ld x s6_5 (ix3 0 v h) = x (ix3 5 v h) := ld_slab x 5 v h
end

theorem ld_rB (x : Vec Ideal S512 .f32) : View.ld x rB = x := View.ld_unit_zero (by funext a; match a with | ⟨0, _⟩ => rfl) _ x
theorem ld_rW264 (x : Vec Ideal S512x264 .bf16) : View.ld x rW264 = x :=
  View.ld_unit_zero (by funext a; match a with | ⟨0, _⟩ => rfl | ⟨1, _⟩ => rfl) _ x
theorem ld_rW256 (x : Vec Ideal S512x256 .bf16) : View.ld x rW256 = x :=
  View.ld_unit_zero (by funext a; match a with | ⟨0, _⟩ => rfl | ⟨1, _⟩ => rfl) _ x

end Cert.KernelIdeal.Hand

end
-- ==== Proof.Spec.lean ====
import Idealize.ShloMosaic.PureOps.Ideal
import Idealize.ShloMosaic.Lib.ValueIdx
import Mathlib.Algebra.BigOperators.Fin

noncomputable section

namespace Cert.Moe

open Idealize.ShloMosaic Idealize.ShloMosaic.ValueIdx
open scoped BigOperators

def byteOf (w : BitVec 32) : Fin 256 := ⟨w.toNat % 256, Nat.mod_lt _ (by decide)⟩

theorem byteOf_val_of_lt {w : BitVec 32} (h : w.toNat < 256) : (byteOf w).val = w.toNat := Nat.mod_eq_of_lt h

def InRange (a : (⟨1, ![65536]⟩ : Shape).Idx → BitVec 32) : Prop := ∀ n : Fin 65536, (a (ix1 n)).toNat < 256

def sel (e : ℕ) (fu : BitVec 32) : EReal := if fu = BitVec.ofNat 32 e then 1 else 0

def cCube : EReal := Ideal.ofBits .f32 0x3D372713#32
def cScale : EReal := Ideal.ofBits .f32 0x3F4C422A#32
def cOne : EReal := Ideal.ofBits .f32 0x3F800000#32
def cHalf : EReal := Ideal.ofBits .f32 0x3F000000#32

def gelu (x : EReal) : EReal := x * (cHalf * (cOne + Ideal.tanh (cScale * (x + cCube * ((x * x) * x)))))

def preT {k : ℕ} (T : Fin k → Fin 256 → Fin 512 → EReal) (b1 : Fin 512 → EReal) (ids : Fin k → Fin 256) (h : Fin 512) : EReal :=
  (∑ i : Fin k, T i (ids i) h) + b1 h

def fuse {k : ℕ} (emb : Fin k → Fin 256 → Fin 64 → EReal) (W1 : Fin k → Fin 64 → Fin 512 → EReal) (i : Fin k) (v : Fin 256) (h : Fin 512) : EReal :=
  ∑ d : Fin 64, emb i v d * W1 i d h

def expertT {k C : ℕ} (T : Fin k → Fin 256 → Fin 512 → EReal) (b1 : Fin 512 → EReal) (Wo : Fin 512 → Fin C → EReal)
    (ids : Fin k → Fin 256) (s : EReal) (col : Fin C) : EReal :=
  (∑ q : Fin 512, gelu (preT T b1 ids q) * Wo q col) * s

def expert {k C : ℕ} (emb : Fin k → Fin 256 → Fin 64 → EReal) (W1 : Fin k → Fin 64 → Fin 512 → EReal) (b1 : Fin 512 → EReal)
    (Wo : Fin 512 → Fin C → EReal) (ids : Fin k → Fin 256) (s : EReal) (col : Fin C) : EReal :=
  expertT (fuse emb W1) b1 Wo ids s col

def row256 (i : Fin 4) (d : Fin 64) : Fin 256 := ⟨i.val * 64 + d.val, by omega⟩
def row320 (i : Fin 5) (d : Fin 64) : Fin 320 := ⟨i.val * 64 + d.val, by omega⟩
def row384 (i : Fin 6) (d : Fin 64) : Fin 384 := ⟨i.val * 64 + d.val, by omega⟩

def sideBySide (Wr : (⟨2, ![512, 256]⟩ : Shape).Idx → EReal) (Wf : (⟨2, ![512, 8]⟩ : Shape).Idx → EReal) (q : Fin 512) (col : Fin 264) : EReal :=
  if h : col.val < 256 then Wr (ix2 q ⟨col.val, h⟩) else Wf (ix2 q ⟨col.val - 256, by omega⟩)

abbrev IdxVec := (⟨1, ![65536]⟩ : Shape).Idx → BitVec 32

def routed (fuMap : (⟨1, ![256]⟩ : Shape).Idx → BitVec 32) (Op : IdxVec) (n : Fin 65536) : BitVec 32 :=
  fuMap (ix1 (byteOf (Op (ix1 n))))

def band264 (e : ℕ) (A Val P Op : IdxVec) (fuMap : (⟨1, ![256]⟩ : Shape).Idx → BitVec 32)
    (emb : (⟨3, ![4, 256, 64]⟩ : Shape).Idx → EReal) (W1 : (⟨2, ![256, 512]⟩ : Shape).Idx → EReal) (b1 : (⟨1, ![512]⟩ : Shape).Idx → EReal)
    (Wr : (⟨2, ![512, 256]⟩ : Shape).Idx → EReal) (Wf : (⟨2, ![512, 8]⟩ : Shape).Idx → EReal) (n : Fin 65536) (col : Fin 264) : EReal :=
  expert (fun i v d => emb (ix3 i v d)) (fun i d h => W1 (ix2 (row256 i d) h)) (fun h => b1 (ix1 h)) (sideBySide Wr Wf)
    ![byteOf (A (ix1 n)), byteOf (Val (ix1 n)), byteOf (P (ix1 n) &&& 1#32), byteOf (Op (ix1 n))] (sel e (routed fuMap Op n)) col

def bandMove (A X Y Val Op : IdxVec) (fuMap : (⟨1, ![256]⟩ : Shape).Idx → BitVec 32)
    (emb : (⟨3, ![5, 256, 64]⟩ : Shape).Idx → EReal) (W1 : (⟨2, ![320, 512]⟩ : Shape).Idx → EReal) (b1 : (⟨1, ![512]⟩ : Shape).Idx → EReal)
    (Wo : (⟨2, ![512, 256]⟩ : Shape).Idx → EReal) (n : Fin 65536) (col : Fin 256) : EReal :=
  expert (fun i v d => emb (ix3 i v d)) (fun i d h => W1 (ix2 (row320 i d) h)) (fun h => b1 (ix1 h)) (fun q c => Wo (ix2 q c))
    ![byteOf (A (ix1 n)), byteOf (X (ix1 n)), byteOf (Y (ix1 n)), byteOf (Val (ix1 n)), byteOf (Op (ix1 n))] (sel 2 (routed fuMap Op n)) col

def band6 (e : ℕ) (i0 i1 i2 i3 i4 Op : IdxVec) (fuMap : (⟨1, ![256]⟩ : Shape).Idx → BitVec 32)
    (emb : (⟨3, ![6, 256, 64]⟩ : Shape).Idx → EReal) (W1 : (⟨2, ![384, 512]⟩ : Shape).Idx → EReal) (b1 : (⟨1, ![512]⟩ : Shape).Idx → EReal)
    (Wo : (⟨2, ![512, 256]⟩ : Shape).Idx → EReal) (n : Fin 65536) (col : Fin 256) : EReal :=
  expert (fun i v d => emb (ix3 i v d)) (fun i d h => W1 (ix2 (row384 i d) h)) (fun h => b1 (ix1 h)) (fun q c => Wo (ix2 q c))
    ![byteOf (i0 (ix1 n)), byteOf (i1 (ix1 n)), byteOf (i2 (ix1 n)), byteOf (i3 (ix1 n)), byteOf (i4 (ix1 n)), byteOf (Op (ix1 n))]
    (sel e (routed fuMap Op n)) col

-- A sum over k·64 positions is the double sum over slot and offset.
theorem sum_rows {k : ℕ} (f : Fin (k * 64) → EReal) :
    ∑ j, f j = ∑ i : Fin k, ∑ d : Fin 64, f ⟨i.val * 64 + d.val, by omega⟩ := by
  rw [← Finset.sum_product', Finset.univ_product_univ]
  refine (Fintype.sum_equiv finProdFinEquiv (fun p : Fin k × Fin 64 => f ⟨p.1.val * 64 + p.2.val, by omega⟩) f fun p => congrArg f (Fin.ext ?_)).symm
  simp only [finProdFinEquiv, Equiv.coe_fn_mk]
  omega

theorem sum_row256 (f : Fin 256 → EReal) : ∑ j : Fin 256, f j = ∑ i : Fin 4, ∑ d : Fin 64, f (row256 i d) := sum_rows (k := 4) f
theorem sum_row320 (f : Fin 320 → EReal) : ∑ j : Fin 320, f j = ∑ i : Fin 5, ∑ d : Fin 64, f (row320 i d) := sum_rows (k := 5) f
theorem sum_row384 (f : Fin 384 → EReal) : ∑ j : Fin 384, f j = ∑ i : Fin 6, ∑ d : Fin 64, f (row384 i d) := sum_rows (k := 6) f

theorem sum_indicator_mul {n : ℕ} (a : Fin n) (T : Fin n → EReal) :
    ∑ v : Fin n, (if v = a then (1 : EReal) else 0) * T v = T a := by
  rw [Finset.sum_eq_single a]
  · simp
  · intro v _ hv; simp [hv]
  · intro h; exact absurd (Finset.mem_univ a) h

end Cert.Moe

end
-- ==== Proof.KIArgs.lean ====
import proofs.«403230_j21208548507705_2_alg».proof.Proof.Gen.KernelIdeal
import proofs.«403230_j21208548507705_2_alg».proof.Proof.Spec

noncomputable section

namespace Cert.KernelIdeal.Hand

open Idealize.ShloMosaic Idealize.ShloMosaic.TcCoe Idealize.SL.Sem Idealize.ShloMosaic.ValueIdx
open Cert.KernelIdeal

variable (m : (ℓ : Loc nD τ sig) → Buf (Elt Ideal) ℓ) (c : Dev nD)

abbrev aA : Cert.Moe.IdxVec := m ((c : Thread nD τ).loc main_arg0)
abbrev aX : Cert.Moe.IdxVec := m ((c : Thread nD τ).loc main_arg1)
abbrev aY : Cert.Moe.IdxVec := m ((c : Thread nD τ).loc main_arg2)
abbrev aSP : Cert.Moe.IdxVec := m ((c : Thread nD τ).loc main_arg3)
abbrev aP : Cert.Moe.IdxVec := m ((c : Thread nD τ).loc main_arg4)
abbrev aPCH : Cert.Moe.IdxVec := m ((c : Thread nD τ).loc main_arg5)
abbrev aPCL : Cert.Moe.IdxVec := m ((c : Thread nD τ).loc main_arg6)
abbrev aOp : Cert.Moe.IdxVec := m ((c : Thread nD τ).loc main_arg7)
abbrev aVal : Cert.Moe.IdxVec := m ((c : Thread nD τ).loc main_arg8)
abbrev aFu : (⟨1, ![256]⟩ : Shape).Idx → BitVec 32 := m ((c : Thread nD τ).loc main_arg9)
abbrev aluEmb : (⟨3, ![4, 256, 64]⟩ : Shape).Idx → EReal := m ((c : Thread nD τ).loc main_arg10)
abbrev aluW1 : (⟨2, ![256, 512]⟩ : Shape).Idx → EReal := m ((c : Thread nD τ).loc main_arg11)
abbrev aluB1 : (⟨1, ![512]⟩ : Shape).Idx → EReal := m ((c : Thread nD τ).loc main_arg12)
abbrev aluWr : (⟨2, ![512, 256]⟩ : Shape).Idx → EReal := m ((c : Thread nD τ).loc main_arg13)
abbrev aluWf : (⟨2, ![512, 8]⟩ : Shape).Idx → EReal := m ((c : Thread nD τ).loc main_arg14)
abbrev logicEmb : (⟨3, ![4, 256, 64]⟩ : Shape).Idx → EReal := m ((c : Thread nD τ).loc main_arg15)
abbrev logicW1 : (⟨2, ![256, 512]⟩ : Shape).Idx → EReal := m ((c : Thread nD τ).loc main_arg16)
abbrev logicB1 : (⟨1, ![512]⟩ : Shape).Idx → EReal := m ((c : Thread nD τ).loc main_arg17)
abbrev logicWr : (⟨2, ![512, 256]⟩ : Shape).Idx → EReal := m ((c : Thread nD τ).loc main_arg18)
abbrev logicWf : (⟨2, ![512, 8]⟩ : Shape).Idx → EReal := m ((c : Thread nD τ).loc main_arg19)
abbrev moveEmb : (⟨3, ![5, 256, 64]⟩ : Shape).Idx → EReal := m ((c : Thread nD τ).loc main_arg20)
abbrev moveW1 : (⟨2, ![320, 512]⟩ : Shape).Idx → EReal := m ((c : Thread nD τ).loc main_arg21)
abbrev moveB1 : (⟨1, ![512]⟩ : Shape).Idx → EReal := m ((c : Thread nD τ).loc main_arg22)
abbrev moveWo : (⟨2, ![512, 256]⟩ : Shape).Idx → EReal := m ((c : Thread nD τ).loc main_arg23)
abbrev flowEmb : (⟨3, ![6, 256, 64]⟩ : Shape).Idx → EReal := m ((c : Thread nD τ).loc main_arg24)
abbrev flowW1 : (⟨2, ![384, 512]⟩ : Shape).Idx → EReal := m ((c : Thread nD τ).loc main_arg25)
abbrev flowB1 : (⟨1, ![512]⟩ : Shape).Idx → EReal := m ((c : Thread nD τ).loc main_arg26)
abbrev flowWo : (⟨2, ![512, 256]⟩ : Shape).Idx → EReal := m ((c : Thread nD τ).loc main_arg27)
abbrev stackEmb : (⟨3, ![6, 256, 64]⟩ : Shape).Idx → EReal := m ((c : Thread nD τ).loc main_arg28)
abbrev stackW1 : (⟨2, ![384, 512]⟩ : Shape).Idx → EReal := m ((c : Thread nD τ).loc main_arg29)
abbrev stackB1 : (⟨1, ![512]⟩ : Shape).Idx → EReal := m ((c : Thread nD τ).loc main_arg30)
abbrev stackWo : (⟨2, ![512, 256]⟩ : Shape).Idx → EReal := m ((c : Thread nD τ).loc main_arg31)

structure Ranges : Prop where
  A : Cert.Moe.InRange (aA m c)
  X : Cert.Moe.InRange (aX m c)
  Y : Cert.Moe.InRange (aY m c)
  SP : Cert.Moe.InRange (aSP m c)
  P : Cert.Moe.InRange (aP m c)
  PCH : Cert.Moe.InRange (aPCH m c)
  PCL : Cert.Moe.InRange (aPCL m c)
  Op : Cert.Moe.InRange (aOp m c)
  Val : Cert.Moe.InRange (aVal m c)

end Cert.KernelIdeal.Hand

end
-- ==== Proof.KIHostT2Lib.lean ====
import proofs.«403230_j21208548507705_2_alg».proof.Proof.KIArgs
import proofs.«403230_j21208548507705_2_alg».proof.Proof.Gen.KernelIdeal.Launch
import Idealize.ShloMosaic.Lib.StableHlo.Run
import Idealize.ShloMosaic.PureOps.Ideal.Laws
import Idealize.ShloMosaic.Lib.StackMember
import Idealize.ShloMosaic.Lib.ValueLayout

noncomputable section

namespace Cert.KernelIdeal.Hand

open Idealize.ShloMosaic Idealize.ShloMosaic.TcCoe Idealize.SL.Sem Idealize.ShloMosaic.ValueIdx
open Cert.KernelIdeal Cert.KernelIdeal.Gen Cert.Moe
open scoped BigOperators

abbrev t2_slab {k r : ℕ} (emb : (⟨3, ![k, 256, 64]⟩ : Shape).Idx → EReal) (W1 : (⟨2, ![r, 512]⟩ : Shape).Idx → EReal) (oi ow : ℕ)
    (hs : (⟨3, ![k, 256, 64]⟩ : Shape).Slices ![oi, 0, 0] S1x256x64) (hw : (⟨2, ![r, 512]⟩ : Shape).Slices ![ow, 0] S64x512) :
    S1x256x512.Idx → EReal :=
  broadcastInDim S1x256x512 ![1, 2] bcast_S256x512_S1x256x512_1_2
    (truncf (F := Ideal) .bf16
      (Host.dotGeneral (F := Ideal) (φ₁ := .f32) (φ₂ := .f32) dot_S256x64_S64x512_S256x512_1_0_0_1_n_n none
        (shapeCast S256x64 (extractStridedSlice S1x256x64 ![oi, 0, 0] emb hs) shapeCasts_S1x256x64_S256x64)
        (extractStridedSlice S64x512 ![ow, 0] W1 hw)) bitsLt_bf16_f32)

-- The cast and the new leading axis move nothing, the reshape drops the unit axis, the slices shift, the product is the sum over the 64 shared positions.
theorem t2_slab_apply {k r : ℕ} (emb : (⟨3, ![k, 256, 64]⟩ : Shape).Idx → EReal) (W1 : (⟨2, ![r, 512]⟩ : Shape).Idx → EReal)
    (oi ow : ℕ) (hoi : oi < k) (how : ow + 64 ≤ r) (hs) (hw) (v : Fin 256) (h : Fin 512) :
    t2_slab emb W1 oi ow hs hw (ix3 (0 : Fin 1) v h)
      = ∑ d : Fin 64, emb (ix3 ⟨oi, hoi⟩ v d) * W1 (ix2 ⟨ow + d.val, by have := d.isLt; omega⟩ h) := by
  rw [t2_slab, broadcastInDim_apply _ _ _ (ix3 (0 : Fin 1) v h) (ix2 v h) (fun a => by match a with | ⟨0, _⟩ => rfl | ⟨1, _⟩ => rfl),
    truncf_apply, show dot_S256x64_S64x512_S256x512_1_0_0_1_n_n = DotDims.plain 256 64 512 from rfl, StackMember.dotGeneral_plain_apply]
  refine Finset.sum_congr rfl fun d _ => ?_
  rw [slice2_axis0_apply ow W1 hw d h ⟨ow + d.val, by have := d.isLt; omega⟩ rfl, shapeCast_dropUnit_apply,
    extractStridedSlice_apply ![oi, 0, 0] emb hs _ (ix3 ⟨oi, hoi⟩ v d)
      (fun a => by match a with | ⟨0, _⟩ => rfl | ⟨1, _⟩ => exact (Nat.zero_add _).symm | ⟨2, _⟩ => exact (Nat.zero_add _).symm)]

-- Slot n's block is slab n of the table times rows 64 n … 64 n + 63 of the weight; stacked, entry (i, v, h) is block i at (0, v, h).
theorem t2_table_apply {N r : ℕ} (emb : (⟨3, ![N, 256, 64]⟩ : Shape).Idx → EReal) (W1 : (⟨2, ![r, 512]⟩ : Shape).Idx → EReal)
    (hr : N * 64 ≤ r) (hs : ∀ n : Fin N, (⟨3, ![N, 256, 64]⟩ : Shape).Slices ![n.val, 0, 0] S1x256x64)
    (hw : ∀ n : Fin N, (⟨2, ![r, 512]⟩ : Shape).Slices ![n.val * 64, 0] S64x512) (hcat) (i : Fin N) (v : Fin 256) (h : Fin 512) :
    concatenate ⟨3, ![N, 256, 512]⟩ 0 (List.ofFn fun n : Fin N =>
        (⟨S1x256x512, t2_slab emb W1 n.val (n.val * 64) (hs n) (hw n)⟩ : (s : Shape) × (s.Idx → EReal))) hcat (ix3 i v h)
      = fuse (fun i v d => emb (ix3 i v d))
          (fun i d h => W1 (ix2 ⟨i.val * 64 + d.val, by have := i.isLt; have := d.isLt; omega⟩ h)) i v h :=
  (concatenate_ofFn_unit_apply 0 _ hcat rfl rfl (ix3 i v h) i rfl (ix3 (0 : Fin 1) v h)
    (fun b hb => by match b with | ⟨0, _⟩ => exact absurd rfl hb | ⟨1, _⟩ => rfl | ⟨2, _⟩ => rfl)).trans
    (t2_slab_apply emb W1 i.val (i.val * 64) i.isLt (by have := i.isLt; omega) _ _ v h)

open StableHlo in
macro "host_results" : tactic =>
  `(tactic| simp (disch := decide) only [hostOps0, after_cons, after_nil, Matrix.cons_val,
      nullary_result', unary_result', binary_result', reshape_result', nary_result',
      nullary_result_ne', unary_result_ne', binary_result_ne', reshape_result_ne', nary_result_ne'])

end Cert.KernelIdeal.Hand

end
-- ==== Proof.KIHostA.lean ====
import proofs.«403230_j21208548507705_2_alg».proof.Proof.KIHostT2Lib

noncomputable section

namespace Cert.KernelIdeal.Hand

open Idealize.ShloMosaic Idealize.ShloMosaic.TcCoe Idealize.SL.Sem Idealize.ShloMosaic.ValueIdx
open Cert.KernelIdeal Cert.KernelIdeal.Gen Cert.Moe

-- Column j of the nine vectors set side by side is vector j.
theorem pack9_entry (x : Fin 9 → (⟨1, ![65536]⟩ : Shape).Idx → BitVec 32)
    (hb : (⟨1, ![65536]⟩ : Shape).BroadcastsInDim ⟨2, ![65536, 1]⟩ ![0]) (hc) (n : Fin 65536) (j : Fin 9) :
    concatenate ⟨2, ![65536, 9]⟩ 1 (List.ofFn fun k : Fin 9 =>
        (⟨⟨2, ![65536, 1]⟩, broadcastInDim ⟨2, ![65536, 1]⟩ ![0] hb (x k)⟩ : (s : Shape) × (s.Idx → BitVec 32))) hc (ix2 n j)
      = x j (ix1 n) :=
  (concatenate_ofFn_unit_apply 1 _ hc rfl rfl (ix2 n j) j rfl (ix2 n (0 : Fin 1))
    (fun b hb' => by match b with | ⟨0, _⟩ => rfl | ⟨1, _⟩ => exact absurd rfl hb')).trans
    (broadcastInDim_apply _ hb _ _ (ix1 n) (by intro a; fin_cases a; rfl))

theorem sel_entry (fu : (⟨1, ![256]⟩ : Shape).Idx → BitVec 32)
    (h1 : (⟨2, ![256, 1]⟩ : Shape).BroadcastsInDim ⟨2, ![256, 5]⟩ ![0, 1])
    (h2 : (⟨1, ![256]⟩ : Shape).BroadcastsInDim ⟨2, ![256, 1]⟩ ![0])
    (h3 : (⟨2, ![1, 5]⟩ : Shape).BroadcastsInDim ⟨2, ![256, 5]⟩ ![0, 1])
    (h4 : (⟨1, ![5]⟩ : Shape).BroadcastsInDim ⟨2, ![1, 5]⟩ ![1])
    (v : Fin 256) (e : Fin 5) :
    (uitofp (F := Ideal) .bf16 (cmpi .eq (broadcastInDim ⟨2, ![256, 5]⟩ ![0, 1] h1 (broadcastInDim ⟨2, ![256, 1]⟩ ![0] h2 fu))
        (broadcastInDim ⟨2, ![256, 5]⟩ ![0, 1] h3 (broadcastInDim ⟨2, ![1, 5]⟩ ![1] h4 (iotaInDim ⟨1, ![5]⟩ 32 0))))
      : (⟨2, ![256, 5]⟩ : Shape).Idx → EReal) (ix2 v e) = sel e.val (fu (ix1 v)) := by
  show FloatOps.uitofp (F := Ideal) .bf16 (IntOp.cmpi .eq _ _) = _
  rw [broadcastInDim_apply _ h1 _ _ (ix2 v 0) (by intro a; fin_cases a <;> rfl),
    broadcastInDim_apply _ h2 _ _ (ix1 v) (by intro a; fin_cases a; rfl),
    broadcastInDim_apply _ h3 _ _ (ix2 0 e) (by intro a; fin_cases a <;> rfl),
    broadcastInDim_apply _ h4 _ _ (ix1 e) (by intro a; fin_cases a; rfl)]
  show FloatOps.uitofp (F := Ideal) .bf16 (IntOp.cmpi .eq (fu (ix1 v)) (BitVec.ofNat 32 e.val)) = _
  unfold sel IntOp.cmpi
  by_cases h : fu (ix1 v) = BitVec.ofNat 32 e.val
  · rw [if_pos h, show (fu (ix1 v) == BitVec.ofNat 32 e.val) = true from beq_iff_eq.mpr h]
    show ((((1#1 : BitVec 1).toNat : ℕ) : ℝ) : EReal) = 1
    rw [show (1#1 : BitVec 1).toNat = 1 from rfl, Nat.cast_one, EReal.coe_one]
  · rw [if_neg h, show (fu (ix1 v) == BitVec.ofNat 32 e.val) = false from beq_eq_false_iff_ne.mpr h]
    show ((((0#1 : BitVec 1).toNat : ℕ) : ℝ) : EReal) = 0
    rw [show (0#1 : BitVec 1).toNat = 0 from rfl, Nat.cast_zero, EReal.coe_zero]

theorem sideBySide_entry (Wr : (⟨2, ![512, 256]⟩ : Shape).Idx → EReal) (Wf : (⟨2, ![512, 8]⟩ : Shape).Idx → EReal)
    (hc : Shape.Concatenates [(⟨2, ![512, 256]⟩ : Shape), ⟨2, ![512, 8]⟩] ⟨2, ![512, 264]⟩ 1) (hb : FTy.bits .bf16 < FTy.bits .f32)
    (q : Fin 512) (col : Fin 264) :
    (truncf (F := Ideal) .bf16 (concatenate ⟨2, ![512, 264]⟩ 1 [⟨⟨2, ![512, 256]⟩, Wr⟩, ⟨⟨2, ![512, 8]⟩, Wf⟩] hc : FVec Ideal ⟨2, ![512, 264]⟩ .f32) hb
      : (⟨2, ![512, 264]⟩ : Shape).Idx → EReal) (ix2 q col) = sideBySide Wr Wf q col := by
  rw [truncf_apply]
  unfold sideBySide
  by_cases h : col.val < 256
  · rw [dif_pos h]
    refine concatenate_pair_apply_left 1 Wr Wf hc (ix2 q col) rfl (ix2 q ⟨col.val, h⟩) ?_
    intro b; fin_cases b <;> rfl
  · rw [dif_neg h]
    refine concatenate_pair_apply_right 1 Wr Wf hc (ix2 q col) rfl rfl (ix2 q ⟨col.val - 256, by omega⟩) ?_ ?_
    · intro b hb'; fin_cases b
      · rfl
      · exact absurd rfl hb'
    · show col.val - 256 + 256 = col.val
      omega

variable (m : (ℓ : Loc nD τ sig) → Buf (Elt Ideal) ℓ) (c : Dev nD)

theorem host_idx (n : Fin 65536) (j : Fin 9) :
    (StableHlo.after hostOps0 (fun b => m (c, b)) main_v9 : (⟨2, ![65536, 9]⟩ : Shape).Idx → BitVec 32) (ix2 n j)
      = (![aA m c, aX m c, aY m c, aSP m c, aP m c, aPCH m c, aPCL m c, aOp m c, aVal m c] j) (ix1 n) := by
  host_results
  exact pack9_entry ![aA m c, aX m c, aY m c, aSP m c, aP m c, aPCH m c, aPCL m c, aOp m c, aVal m c] _ _ n j

theorem host_sel (v : Fin 256) (e : Fin 5) :
    (StableHlo.after hostOps0 (fun b => m (c, b)) main_v16 : (⟨2, ![256, 5]⟩ : Shape).Idx → EReal) (ix2 v e)
      = sel e.val (aFu m c (ix1 v)) := by
  host_results
  exact sel_entry _ _ _ _ _ v e

theorem host_Wrf_alu (q : Fin 512) (col : Fin 264) :
    (StableHlo.after hostOps0 (fun b => m (c, b)) main_v173 : (⟨2, ![512, 264]⟩ : Shape).Idx → EReal) (ix2 q col)
      = sideBySide (aluWr m c) (aluWf m c) q col := by
  host_results
  exact sideBySide_entry _ _ _ _ q col

theorem host_Wrf_logic (q : Fin 512) (col : Fin 264) :
    (StableHlo.after hostOps0 (fun b => m (c, b)) main_v175 : (⟨2, ![512, 264]⟩ : Shape).Idx → EReal) (ix2 q col)
      = sideBySide (logicWr m c) (logicWf m c) q col := by
  host_results
  exact sideBySide_entry _ _ _ _ q col

theorem host_Wo_move :
    (StableHlo.after hostOps0 (fun b => m (c, b)) main_v176 : (⟨2, ![512, 256]⟩ : Shape).Idx → EReal) = moveWo m c := by
  host_results
  rfl

theorem host_Wo_flow :
    (StableHlo.after hostOps0 (fun b => m (c, b)) main_v177 : (⟨2, ![512, 256]⟩ : Shape).Idx → EReal) = flowWo m c := by
  host_results
  rfl

theorem host_Wo_stack :
    (StableHlo.after hostOps0 (fun b => m (c, b)) main_v178 : (⟨2, ![512, 256]⟩ : Shape).Idx → EReal) = stackWo m c := by
  host_results
  rfl

end Cert.KernelIdeal.Hand

end
-- ==== Proof.KIHostT.lean ====
import proofs.«403230_j21208548507705_2_alg».proof.Proof.KIHostT2Lib

noncomputable section

namespace Cert.KernelIdeal.Hand

open Idealize.ShloMosaic Idealize.ShloMosaic.TcCoe Idealize.SL.Sem Idealize.ShloMosaic.ValueIdx
open Cert.KernelIdeal Cert.KernelIdeal.Gen Cert.Moe

variable (m : (ℓ : Loc nD τ sig) → Buf (Elt Ideal) ℓ) (c : Dev nD)

theorem host_T_alu (i : Fin 4) (v : Fin 256) (h : Fin 512) :
    (StableHlo.after hostOps0 (fun b => m (c, b)) main_v41 : (⟨3, ![4, 256, 512]⟩ : Shape).Idx → EReal) (ix3 i v h)
      = fuse (fun i v d => aluEmb m c (ix3 i v d)) (fun i d h => aluW1 m c (ix2 (row256 i d) h)) i v h := by
  host_results
  exact t2_table_apply (aluEmb m c) (aluW1 m c) (by decide) (by decide) (by decide) _ i v h

theorem host_T_logic (i : Fin 4) (v : Fin 256) (h : Fin 512) :
    (StableHlo.after hostOps0 (fun b => m (c, b)) main_v66 : (⟨3, ![4, 256, 512]⟩ : Shape).Idx → EReal) (ix3 i v h)
      = fuse (fun i v d => logicEmb m c (ix3 i v d)) (fun i d h => logicW1 m c (ix2 (row256 i d) h)) i v h := by
  host_results
  exact t2_table_apply (logicEmb m c) (logicW1 m c) (by decide) (by decide) (by decide) _ i v h

end Cert.KernelIdeal.Hand

end
-- ==== Proof.KIHostT2.lean ====
import proofs.«403230_j21208548507705_2_alg».proof.Proof.KIHostT2Lib

noncomputable section

namespace Cert.KernelIdeal.Hand

open Idealize.ShloMosaic Idealize.ShloMosaic.TcCoe Idealize.SL.Sem Idealize.ShloMosaic.ValueIdx
open Cert.KernelIdeal Cert.KernelIdeal.Gen Cert.Moe

variable (m : (ℓ : Loc nD τ sig) → Buf (Elt Ideal) ℓ) (c : Dev nD)

theorem host_T_move (i : Fin 5) (v : Fin 256) (h : Fin 512) :
    (StableHlo.after hostOps0 (fun b => m (c, b)) main_v97 : (⟨3, ![5, 256, 512]⟩ : Shape).Idx → EReal) (ix3 i v h)
      = fuse (fun i v d => moveEmb m c (ix3 i v d)) (fun i d h => moveW1 m c (ix2 (row320 i d) h)) i v h := by
  host_results
  exact t2_table_apply (moveEmb m c) (moveW1 m c) (by decide) (by decide) (by decide) _ i v h

set_option maxHeartbeats 4000000 in
theorem host_T_flow (i : Fin 6) (v : Fin 256) (h : Fin 512) :
    (StableHlo.after hostOps0 (fun b => m (c, b)) main_v134 : (⟨3, ![6, 256, 512]⟩ : Shape).Idx → EReal) (ix3 i v h)
      = fuse (fun i v d => flowEmb m c (ix3 i v d)) (fun i d h => flowW1 m c (ix2 (row384 i d) h)) i v h := by
  host_results
  exact t2_table_apply (flowEmb m c) (flowW1 m c) (by decide) (by decide) (by decide) _ i v h

set_option maxHeartbeats 4000000 in
theorem host_T_stack (i : Fin 6) (v : Fin 256) (h : Fin 512) :
    (StableHlo.after hostOps0 (fun b => m (c, b)) main_v171 : (⟨3, ![6, 256, 512]⟩ : Shape).Idx → EReal) (ix3 i v h)
      = fuse (fun i v d => stackEmb m c (ix3 i v d)) (fun i d h => stackW1 m c (ix2 (row384 i d) h)) i v h := by
  host_results
  exact t2_table_apply (stackEmb m c) (stackW1 m c) (by decide) (by decide) (by decide) _ i v h

end Cert.KernelIdeal.Hand

end
-- ==== Proof.KIPayLib.lean ====
import proofs.«403230_j21208548507705_2_alg».proof.Proof.KIPieces
import proofs.«403230_j21208548507705_2_alg».proof.Proof.Spec
import Idealize.ShloMosaic.PureOps.Ideal.Laws
import Idealize.ShloMosaic.Lib.StackMember
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.Moe
open Cert.KernelIdeal Cert.KernelIdeal.Gen
open scoped BigOperators

-- A product of two matrices added to zero is, at an entry, the sum over the contracted coordinate.
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b) = ∑ c : Fin k, A (ix2 a c) * B (ix2 c b) :=
  (congrFun (matmul_zero_eq_dotGeneral _ prec A B) _).trans (StackMember.dotGeneral_plain_apply prec A B a b)

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h _ _ fun ax => ?_
  match ax with
  | ⟨0, _⟩ =>
    show p.val = if a = 1 then 0 else p.val
    split <;> omega
  | ⟨1, _⟩ => rfl

theorem bias_apply (b : FVec Ideal S512 .f32) (r : Fin 1024) (h : Fin 512) :
    broadcastTo S1024x512 (shapeCast S1x512 b shapeCasts_S512_S1x512) broadcasts_S1x512_S1024x512 (ix2 r h) = b (ix1 h) := by
  rw [broadcastTo_1b_ab_apply, shapeCast_a_1a_apply]

theorem zero_splat_apply {s : Shape} (j : s.Idx) :
    broadcast s (Scalar.ofBits (F := Ideal) .f32 0x00000000#32) j = (0 : EReal) :=
  Ideal.ofBits_zero_f32

theorem and_one_lt (x : BitVec 32) : (x &&& 1#32).toNat < 256 :=
  lt_of_le_of_lt (BitVec.toNat_and x 1#32 ▸ Nat.and_le_right) (by decide)

theorem word_eq_lane_iff (x : BitVec 32) (l : Fin 256) (hx : x.toNat < 256) : x = BitVec.ofNat 32 l.val ↔ l = byteOf x := by
  rw [← BitVec.toNat_inj, Fin.ext_iff, byteOf_val_of_lt hx, BitVec.toNat_ofNat]
  have := l.isLt
  omega

theorem toInt_ofBool (b : Bool) : ((BitVec.ofBool b).setWidth 32).toInt = if b then 1 else 0 := by cases b <;> rfl

-- The indicator matrix of a column of index words: lane by lane, "the word is the lane number".
abbrev hot (c : IVec S1024x1 32) : FVec Ideal S1024x256 .bf16 :=
  truncf .bf16 (sitofp .f32 (extui 32 (cmpi .eq (broadcastTo S1024x256 c broadcasts_S1024x1_S1024x256) lanes) natLt_1_32)) bitsLt_bf16_f32

theorem hot_apply (c : IVec S1024x1 32) (r : Fin 1024) (l : Fin 256) (hc : (c (ix2 r 0)).toNat < 256) :
    hot c (ix2 r l) = if l = byteOf (c (ix2 r 0)) then 1 else 0 := by
  show ((((BitVec.ofBool (broadcastTo S1024x256 c broadcasts_S1024x1_S1024x256 (ix2 r l) == lanes (ix2 r l))).setWidth 32).toInt : ℝ) : EReal) = _
  rw [broadcastTo_a1_ab_apply, show lanes (ix2 r l) = BitVec.ofNat 32 l.val from
    iota_single_apply .tc S1024x256 32 1 iota_S1024x256_d1_w32 (ix2 r l), toInt_ofBool, ← if_congr (word_eq_lane_iff _ l hc) rfl rfl]
  by_cases h : c (ix2 r 0) = BitVec.ofNat 32 l.val <;> simp [h]

-- An indicator matrix times a table with 256 rows picks the table's row at the column's byte.
theorem hot_mul {n : ℕ} (c : IVec S1024x1 32)
    (B : FVec Ideal ⟨2, ![256, n]⟩ .bf16) (r : Fin 1024) (h : Fin n) (hc : (c (ix2 r 0)).toNat < 256) :
    matmul (DotDims.plain 1024 256 n) none (hot c) B (constant ⟨2, ![1024, n]⟩ .f32 0x00000000#32) (ix2 r h)
      = B (ix2 (byteOf (c (ix2 r 0))) h) := by
  rw [matmul_zero_apply]
  refine (Finset.sum_congr rfl fun l _ => ?_).trans (sum_indicator_mul _ fun v => B (ix2 v h))
  rw [hot_apply c r l hc]

theorem column_mul_slab {c : IVec S1024x1 32} {t : FVec Ideal S1x256x512 .bf16} {r : Fin 1024} {h : Fin 512}
    (hc : (c (ix2 r 0)).toNat < 256) :
    matmul dot_S1024x256_S256x512_S1024x512_1_0_0_1_n_n none (hot c) (shapeCast S256x512 t shapeCasts_S1x256x512_S256x512)
        (constant S1024x512 .f32 0x00000000#32) (ix2 r h) = t (ix3 0 (byteOf (c (ix2 r 0))) h) :=
  (hot_mul c _ r h hc).trans (shapeCast_1ab_ab_apply _ _ _ _)

theorem column_mul_column (c : IVec S1024x1 32) (mk : FVec Ideal S256x1 .bf16) (r : Fin 1024) (hc : (c (ix2 r 0)).toNat < 256) :
    matmul dot_S1024x256_S256x1_S1024x1_1_0_0_1_n_n none (hot c) mk (constant S1024x1 .f32 0x00000000#32) (ix2 r 0)
      = mk (ix2 (byteOf (c (ix2 r 0))) 0) :=
  hot_mul c mk r 0 hc

theorem gelu_of_chain (x : EReal) :
    x * (Ideal.ofBits .f32 0x3F000000#32 * (Ideal.ofBits .f32 0x3F800000#32 +
      Ideal.tanh (Ideal.ofBits .f32 0x3F4C422A#32 * (x + Ideal.ofBits .f32 0x3D372713#32 * (x * (x * x)))))) = gelu x := by
  unfold gelu cCube cScale cOne cHalf
  rw [mul_comm x (x * x)]

-- Every expert ends the same way: the activation, the output weight, and the selector entry picked by the operation's indicator row.
theorem expert_apply {k n : ℕ} {hb : S1024x1.Broadcasts ⟨2, ![1024, n]⟩} {x : FVec Ideal S1024x512 .f32} {w : FVec Ideal ⟨2, ![512, n]⟩ .bf16}
    {op : IVec S1024x1 32} {mk : FVec Ideal S256x1 .bf16} {T : Fin k → Fin 256 → Fin 512 → EReal} {b : Fin 512 → EReal}
    {ids : Fin k → Fin 256} (r : Fin 1024) (col : Fin n) (hop : (op (ix2 r 0)).toNat < 256)
    (hx : ∀ q, x (ix2 r q) = (∑ i, T i (ids i) q) + b q) :
    mulf (matmul (DotDims.plain 1024 512 n) none
        (truncf .bf16 (mulf x (mulf (broadcast S1024x512 (Scalar.ofBits (F := Ideal) .f32 0x3F000000#32))
          (addf (broadcast S1024x512 (Scalar.ofBits (F := Ideal) .f32 0x3F800000#32))
            (tanh (mulf (broadcast S1024x512 (Scalar.ofBits (F := Ideal) .f32 0x3F4C422A#32))
              (addf x (mulf (broadcast S1024x512 (Scalar.ofBits (F := Ideal) .f32 0x3D372713#32)) (mulf x (mulf x x))))))))) bitsLt_bf16_f32)
        w (constant ⟨2, ![1024, n]⟩ .f32 0x00000000#32))
      (broadcastTo ⟨2, ![1024, n]⟩ (matmul dot_S1024x256_S256x1_S1024x1_1_0_0_1_n_n none (hot op) mk
        (constant S1024x1 .f32 0x00000000#32)) hb) (ix2 r col)
      = expertT T b (fun q c => w (ix2 q c)) ids (mk (ix2 (byteOf (op (ix2 r 0))) 0)) col := by
  rw [mulf_apply, matmul_zero_apply, broadcastTo_a1_ab_apply, column_mul_column op mk r hop]
  unfold expertT preT
  refine congrArg (· * _) (Finset.sum_congr rfl fun q _ => ?_)
  rw [← hx q]
  exact congrArg (· * _) (gelu_of_chain _)

end Cert.KernelIdeal.Hand

end
-- ==== Proof.KIPayAlu.lean ====
import proofs.«403230_j21208548507705_2_alg».proof.Proof.KIPayLib

namespace Cert.KernelIdeal.Hand

open Idealize.ShloMosaic Idealize.ShloMosaic.ValueIdx Cert.Moe
open Cert.KernelIdeal Cert.KernelIdeal.Gen

theorem aluOf_apply (op a val p : Vec Ideal S1024x1 .i32) (mk : Vec Ideal S256x1 .bf16)
    (t0 t1 t2 t3 : Vec Ideal S1x256x512 .bf16) (b : Vec Ideal S512 .f32) (w : Vec Ideal S512x264 .bf16)
    (r : Fin 1024) (col : Fin 264)
    (hop : (op (ix2 r 0)).toNat < 256) (ha : (a (ix2 r 0)).toNat < 256) (hval : (val (ix2 r 0)).toNat < 256) :
    aluOf op a val p mk t0 t1 t2 t3 b w (ix2 r col) =
      expertT (fun i v h => (![t0, t1, t2, t3] i) (ix3 0 v h)) (fun h => b (ix1 h)) (fun q cc => w (ix2 q cc))
        ![byteOf (a (ix2 r 0)), byteOf (val (ix2 r 0)), byteOf (p (ix2 r 0) &&& 1#32), byteOf (op (ix2 r 0))]
        (mk (ix2 (byteOf (op (ix2 r 0))) 0)) col := by
  unfold aluOf k0_pay11 k0_pay10 k0_pay9 k0_pay8 k0_pay3 k0_pay2
  simp only [shapeCast_self]
  refine expert_apply r col hop fun q => ?_
  simp only [addf_apply]
  rw [zero_splat_apply, column_mul_slab ha, column_mul_slab hval,
    column_mul_slab (c := andi p (broadcast S1024x1 1#32)) (and_one_lt _),
    column_mul_slab hop, bias_apply, zero_add, Fin.sum_univ_four]
  rfl

end Cert.KernelIdeal.Hand
-- ==== Proof.KIPayLogic.lean ====
import proofs.«403230_j21208548507705_2_alg».proof.Proof.KIPayLib

namespace Cert.KernelIdeal.Hand

open Idealize.ShloMosaic Idealize.ShloMosaic.ValueIdx Cert.Moe
open Cert.KernelIdeal Cert.KernelIdeal.Gen

theorem logicOf_apply (op a val p : Vec Ideal S1024x1 .i32) (mk : Vec Ideal S256x1 .bf16)
    (t0 t1 t2 t3 : Vec Ideal S1x256x512 .bf16) (b : Vec Ideal S512 .f32) (w : Vec Ideal S512x264 .bf16)
    (r : Fin 1024) (col : Fin 264)
    (hop : (op (ix2 r 0)).toNat < 256) (ha : (a (ix2 r 0)).toNat < 256) (hval : (val (ix2 r 0)).toNat < 256) :
    logicOf op a val p mk t0 t1 t2 t3 b w (ix2 r col) =
      expertT (fun i v h => (![t0, t1, t2, t3] i) (ix3 0 v h)) (fun h => b (ix1 h)) (fun q cc => w (ix2 q cc))
        ![byteOf (a (ix2 r 0)), byteOf (val (ix2 r 0)), byteOf (p (ix2 r 0) &&& 1#32), byteOf (op (ix2 r 0))]
        (mk (ix2 (byteOf (op (ix2 r 0))) 0)) col := by
  unfold logicOf k0_pay14 k0_pay13 k0_pay12 k0_pay4 k0_pay2
  simp only [shapeCast_self]
  refine expert_apply r col hop fun q => ?_
  simp only [addf_apply]
  rw [zero_splat_apply, column_mul_slab ha, column_mul_slab hval,
    column_mul_slab (c := andi p (broadcast S1024x1 1#32)) (and_one_lt _),
    column_mul_slab hop, bias_apply, zero_add, Fin.sum_univ_four]
  rfl

end Cert.KernelIdeal.Hand
-- ==== Proof.KIPayMove.lean ====
import proofs.«403230_j21208548507705_2_alg».proof.Proof.KIPayLib

namespace Cert.KernelIdeal.Hand

open Idealize.ShloMosaic Idealize.ShloMosaic.ValueIdx Cert.Moe
open Cert.KernelIdeal Cert.KernelIdeal.Gen

theorem moveOf_apply (op a x y val : Vec Ideal S1024x1 .i32) (mk : Vec Ideal S256x1 .bf16)
    (t0 t1 t2 t3 t4 : Vec Ideal S1x256x512 .bf16) (b : Vec Ideal S512 .f32) (w : Vec Ideal S512x256 .bf16)
    (r : Fin 1024) (col : Fin 256)
    (hop : (op (ix2 r 0)).toNat < 256) (ha : (a (ix2 r 0)).toNat < 256) (hx : (x (ix2 r 0)).toNat < 256)
    (hy : (y (ix2 r 0)).toNat < 256) (hval : (val (ix2 r 0)).toNat < 256) :
    moveOf op a x y val mk t0 t1 t2 t3 t4 b w (ix2 r col) =
      expertT (fun i v h => (![t0, t1, t2, t3, t4] i) (ix3 0 v h)) (fun h => b (ix1 h)) (fun q cc => w (ix2 q cc))
        ![byteOf (a (ix2 r 0)), byteOf (x (ix2 r 0)), byteOf (y (ix2 r 0)), byteOf (val (ix2 r 0)), byteOf (op (ix2 r 0))]
        (mk (ix2 (byteOf (op (ix2 r 0))) 0)) col := by
  unfold moveOf k0_pay17 k0_pay16 k0_pay15 k0_pay5 k0_pay2
  simp only [shapeCast_self]
  refine expert_apply r col hop fun q => ?_
  simp only [addf_apply]
  rw [zero_splat_apply, column_mul_slab ha, column_mul_slab hx, column_mul_slab hy,
    column_mul_slab hval, column_mul_slab hop, bias_apply, zero_add, Fin.sum_univ_five]
  rfl

end Cert.KernelIdeal.Hand
-- ==== Proof.KIPayFlow.lean ====
import proofs.«403230_j21208548507705_2_alg».proof.Proof.KIPayLib

namespace Cert.KernelIdeal.Hand

open Idealize.ShloMosaic Idealize.ShloMosaic.ValueIdx Cert.Moe
open Cert.KernelIdeal Cert.KernelIdeal.Gen

theorem flowOf_apply (op pch pcl p val sp : Vec Ideal S1024x1 .i32) (mk : Vec Ideal S256x1 .bf16)
    (t0 t1 t2 t3 t4 t5 : Vec Ideal S1x256x512 .bf16) (b : Vec Ideal S512 .f32) (w : Vec Ideal S512x256 .bf16)
    (r : Fin 1024) (col : Fin 256)
    (hop : (op (ix2 r 0)).toNat < 256) (hpch : (pch (ix2 r 0)).toNat < 256) (hpcl : (pcl (ix2 r 0)).toNat < 256)
    (hp : (p (ix2 r 0)).toNat < 256) (hval : (val (ix2 r 0)).toNat < 256) (hsp : (sp (ix2 r 0)).toNat < 256) :
    flowOf op pch pcl p val sp mk t0 t1 t2 t3 t4 t5 b w (ix2 r col) =
      expertT (fun i v h => (![t0, t1, t2, t3, t4, t5] i) (ix3 0 v h)) (fun h => b (ix1 h)) (fun q cc => w (ix2 q cc))
        ![byteOf (pch (ix2 r 0)), byteOf (pcl (ix2 r 0)), byteOf (p (ix2 r 0)), byteOf (val (ix2 r 0)),
          byteOf (sp (ix2 r 0)), byteOf (op (ix2 r 0))]
        (mk (ix2 (byteOf (op (ix2 r 0))) 0)) col := by
  unfold flowOf k0_pay23 k0_pay22 k0_pay21 k0_pay20 k0_pay19 k0_pay18 k0_pay6 k0_pay2
  simp only [shapeCast_self]
  refine expert_apply r col hop fun q => ?_
  simp only [addf_apply]
  rw [zero_splat_apply, column_mul_slab hpch, column_mul_slab hpcl, column_mul_slab hp,
    column_mul_slab hval, column_mul_slab hsp, column_mul_slab hop, bias_apply, zero_add,
    Fin.sum_univ_six]
  rfl

end Cert.KernelIdeal.Hand
-- ==== Proof.KIPayStack.lean ====
import proofs.«403230_j21208548507705_2_alg».proof.Proof.KIPayLib

namespace Cert.KernelIdeal.Hand

open Idealize.ShloMosaic Idealize.ShloMosaic.ValueIdx Cert.Moe
open Cert.KernelIdeal Cert.KernelIdeal.Gen

theorem stackOf_apply (op a x sp p val : Vec Ideal S1024x1 .i32) (mk : Vec Ideal S256x1 .bf16)
    (t0 t1 t2 t3 t4 t5 : Vec Ideal S1x256x512 .bf16) (b : Vec Ideal S512 .f32) (w : Vec Ideal S512x256 .bf16)
    (r : Fin 1024) (col : Fin 256)
    (hop : (op (ix2 r 0)).toNat < 256) (ha : (a (ix2 r 0)).toNat < 256) (hx : (x (ix2 r 0)).toNat < 256)
    (hsp : (sp (ix2 r 0)).toNat < 256) (hp : (p (ix2 r 0)).toNat < 256) (hval : (val (ix2 r 0)).toNat < 256) :
    stackOf op a x sp p val mk t0 t1 t2 t3 t4 t5 b w (ix2 r col) =
      expertT (fun i v h => (![t0, t1, t2, t3, t4, t5] i) (ix3 0 v h)) (fun h => b (ix1 h)) (fun q cc => w (ix2 q cc))
        ![byteOf (a (ix2 r 0)), byteOf (x (ix2 r 0)), byteOf (sp (ix2 r 0)), byteOf (p (ix2 r 0)), byteOf (val (ix2 r 0)), byteOf (op (ix2 r 0))]
        (mk (ix2 (byteOf (op (ix2 r 0))) 0)) col := by
  unfold stackOf k0_pay1 k0_pay26 k0_pay25 k0_pay24 k0_pay7 k0_pay2
  simp only [shapeCast_self]
  refine expert_apply r col hop fun q => ?_
  simp only [addf_apply]
  rw [zero_splat_apply, column_mul_slab ha, column_mul_slab hx, column_mul_slab hsp,
    column_mul_slab hp, column_mul_slab hval, column_mul_slab hop, bias_apply, zero_add,
    Fin.sum_univ_six]
  rfl

end Cert.KernelIdeal.Hand
-- ==== Proof.KIBands.lean ====
import proofs.«403230_j21208548507705_2_alg».proof.Proof.KILoads
import proofs.«403230_j21208548507705_2_alg».proof.Proof.KIReads
import proofs.«403230_j21208548507705_2_alg».proof.Proof.KIHostA
import proofs.«403230_j21208548507705_2_alg».proof.Proof.KIHostT
import proofs.«403230_j21208548507705_2_alg».proof.Proof.KIHostT2
import proofs.«403230_j21208548507705_2_alg».proof.Proof.KIPayAlu
import proofs.«403230_j21208548507705_2_alg».proof.Proof.KIPayLogic
import proofs.«403230_j21208548507705_2_alg».proof.Proof.KIPayMove
import proofs.«403230_j21208548507705_2_alg».proof.Proof.KIPayFlow
import proofs.«403230_j21208548507705_2_alg».proof.Proof.KIPayStack
import proofs.«403230_j21208548507705_2_alg».proof.Proof.KIArgs
import proofs.«403230_j21208548507705_2_alg».proof.Proof.Spec

noncomputable section

namespace Cert.KernelIdeal.Hand

open Idealize.ShloMosaic Idealize.ShloMosaic.TcCoe Idealize.SL.Sem Idealize.ShloMosaic.ValueIdx
open Cert.KernelIdeal Cert.KernelIdeal.Gen Cert.Moe
open scoped BigOperators

variable (m : (ℓ : Loc nD τ sig) → Buf (Elt Ideal) ℓ) (c : Dev nD)

theorem expertT_congr {k C : ℕ} {T T' : Fin k → Fin 256 → Fin 512 → EReal} {b b' : Fin 512 → EReal}
    {Wo Wo' : Fin 512 → Fin C → EReal} {ids ids' : Fin k → Fin 256} {s s' : EReal} (col : Fin C)
    (hT : ∀ i v h, T i v h = T' i v h) (hb : ∀ h, b h = b' h) (hW : ∀ q cc, Wo q cc = Wo' q cc)
    (hids : ∀ i, ids i = ids' i) (hs : s = s') : expertT T b Wo ids s col = expertT T' b' Wo' ids' s' col := by
  obtain rfl : T = T' := by funext i v h; exact hT i v h
  obtain rfl : b = b' := funext hb
  obtain rfl : Wo = Wo' := by funext q cc; exact hW q cc
  obtain rfl : ids = ids' := funext hids
  rw [hs]

theorem slabs4 (X : Vec Ideal S4x256x512 .bf16) (i : Fin 4) (v : Fin 256) (h : Fin 512) :
    (![View.ld X s4_0, View.ld X s4_1, View.ld X s4_2, View.ld X s4_3] i) (ix3 0 v h) = X (ix3 i v h) := by
  match i with
  | ⟨0, _⟩ => exact ld_s4_0 X v h
  | ⟨1, _⟩ => exact ld_s4_1 X v h
  | ⟨2, _⟩ => exact ld_s4_2 X v h
  | ⟨3, _⟩ => exact ld_s4_3 X v h
theorem slabs5 (X : Vec Ideal S5x256x512 .bf16) (i : Fin 5) (v : Fin 256) (h : Fin 512) :
    (![View.ld X s5_0, View.ld X s5_1, View.ld X s5_2, View.ld X s5_3, View.ld X s5_4] i) (ix3 0 v h) = X (ix3 i v h) := by
  match i with
  | ⟨0, _⟩ => exact ld_s5_0 X v h
  | ⟨1, _⟩ => exact ld_s5_1 X v h
  | ⟨2, _⟩ => exact ld_s5_2 X v h
  | ⟨3, _⟩ => exact ld_s5_3 X v h
  | ⟨4, _⟩ => exact ld_s5_4 X v h
theorem slabs6 (X : Vec Ideal S6x256x512 .bf16) (i : Fin 6) (v : Fin 256) (h : Fin 512) :
    (![View.ld X s6_0, View.ld X s6_1, View.ld X s6_2, View.ld X s6_3, View.ld X s6_4, View.ld X s6_5] i) (ix3 0 v h) = X (ix3 i v h) := by
  match i with
  | ⟨0, _⟩ => exact ld_s6_0 X v h
  | ⟨1, _⟩ => exact ld_s6_1 X v h
  | ⟨2, _⟩ => exact ld_s6_2 X v h
  | ⟨3, _⟩ => exact ld_s6_3 X v h
  | ⟨4, _⟩ => exact ld_s6_4 X v h
  | ⟨5, _⟩ => exact ld_s6_5 X v h

theorem idx_at (t : Fin cfg0.N) (r : Fin 1024) (j : Fin 9) :
    (iblk m c 0 t : S1024x9.Idx → BitVec 32) (ix2 r j)
      = (![aA m c, aX m c, aY m c, aSP m c, aP m c, aPCH m c, aPCL m c, aOp m c, aVal m c] j) (ix1 ⟨1024 * t.val + r.val, row_lt t r⟩) :=
  (iblk0_apply m c t r j).trans (host_idx m c _ j)

theorem ldA (t : Fin cfg0.N) (r : Fin 1024) : View.ld (iblk m c 0 t) cA (ix2 r 0) = aA m c (ix1 ⟨1024 * t.val + r.val, row_lt t r⟩) :=
  (ld_cA _ r).trans (idx_at m c t r 0)
theorem ldX (t : Fin cfg0.N) (r : Fin 1024) : View.ld (iblk m c 0 t) cX (ix2 r 0) = aX m c (ix1 ⟨1024 * t.val + r.val, row_lt t r⟩) :=
  (ld_cX _ r).trans (idx_at m c t r 1)
theorem ldY (t : Fin cfg0.N) (r : Fin 1024) : View.ld (iblk m c 0 t) cY (ix2 r 0) = aY m c (ix1 ⟨1024 * t.val + r.val, row_lt t r⟩) :=
  (ld_cY _ r).trans (idx_at m c t r 2)
theorem ldSP (t : Fin cfg0.N) (r : Fin 1024) : View.ld (iblk m c 0 t) cSP (ix2 r 0) = aSP m c (ix1 ⟨1024 * t.val + r.val, row_lt t r⟩) :=
  (ld_cSP _ r).trans (idx_at m c t r 3)
theorem ldP (t : Fin cfg0.N) (r : Fin 1024) : View.ld (iblk m c 0 t) cP (ix2 r 0) = aP m c (ix1 ⟨1024 * t.val + r.val, row_lt t r⟩) :=
  (ld_cP _ r).trans (idx_at m c t r 4)
theorem ldPCH (t : Fin cfg0.N) (r : Fin 1024) : View.ld (iblk m c 0 t) cPCH (ix2 r 0) = aPCH m c (ix1 ⟨1024 * t.val + r.val, row_lt t r⟩) :=
  (ld_cPCH _ r).trans (idx_at m c t r 5)
theorem ldPCL (t : Fin cfg0.N) (r : Fin 1024) : View.ld (iblk m c 0 t) cPCL (ix2 r 0) = aPCL m c (ix1 ⟨1024 * t.val + r.val, row_lt t r⟩) :=
  (ld_cPCL _ r).trans (idx_at m c t r 6)
theorem ldOp (t : Fin cfg0.N) (r : Fin 1024) : View.ld (iblk m c 0 t) cOp (ix2 r 0) = aOp m c (ix1 ⟨1024 * t.val + r.val, row_lt t r⟩) :=
  (ld_cOp _ r).trans (idx_at m c t r 7)
theorem ldVal (t : Fin cfg0.N) (r : Fin 1024) : View.ld (iblk m c 0 t) cVal (ix2 r 0) = aVal m c (ix1 ⟨1024 * t.val + r.val, row_lt t r⟩) :=
  (ld_cVal _ r).trans (idx_at m c t r 8)

theorem pieceAlu_eq (hr : Ranges m c) (t : Fin cfg0.N) (r : Fin 1024) (col : Fin 264) :
    pieceAlu (iblk m c 0 t) (iblk m c 1 t) (iblk m c 2 t) (iblk m c 3 t) (iblk m c 4 t) (ix2 r col)
      = band264 0 (aA m c) (aVal m c) (aP m c) (aOp m c) (aFu m c) (aluEmb m c) (aluW1 m c) (aluB1 m c) (aluWr m c) (aluWf m c)
          ⟨1024 * t.val + r.val, row_lt t r⟩ col := by
  unfold pieceAlu
  refine (aluOf_apply _ _ _ _ _ _ _ _ _ _ _ r col
    (by rw [ldOp m c t r]; exact hr.Op _)
    (by rw [ldA m c t r]; exact hr.A _)
    (by rw [ldVal m c t r]; exact hr.Val _)).trans ?_
  rw [ldOp m c t r, ldA m c t r, ldVal m c t r, ldP m c t r]
  unfold band264 expert
  refine expertT_congr col ?_ ?_ ?_ (fun _ => rfl) ?_
  · intro i v h
    rw [slabs4, iblk2_eq]
    exact host_T_alu m c i v h
  · intro h
    rw [ld_rB, iblk3_eq]
    exact congrFun (V_of m c main_arg12 (by decide)) _
  · intro q cc
    rw [ld_rW264, iblk4_eq]
    exact host_Wrf_alu m c q cc
  · rw [ld_mk0, iblk1_eq]
    exact host_sel m c _ 0

theorem pieceLogic_eq (hr : Ranges m c) (t : Fin cfg0.N) (r : Fin 1024) (col : Fin 264) :
    pieceLogic (iblk m c 0 t) (iblk m c 1 t) (iblk m c 5 t) (iblk m c 6 t) (iblk m c 7 t) (ix2 r col)
      = band264 1 (aA m c) (aVal m c) (aP m c) (aOp m c) (aFu m c) (logicEmb m c) (logicW1 m c) (logicB1 m c) (logicWr m c) (logicWf m c)
          ⟨1024 * t.val + r.val, row_lt t r⟩ col := by
  unfold pieceLogic
  refine (logicOf_apply _ _ _ _ _ _ _ _ _ _ _ r col
    (by rw [ldOp m c t r]; exact hr.Op _)
    (by rw [ldA m c t r]; exact hr.A _)
    (by rw [ldVal m c t r]; exact hr.Val _)).trans ?_
  rw [ldOp m c t r, ldA m c t r, ldVal m c t r, ldP m c t r]
  unfold band264 expert
  refine expertT_congr col ?_ ?_ ?_ (fun _ => rfl) ?_
  · intro i v h
    rw [slabs4, iblk5_eq]
    exact host_T_logic m c i v h
  · intro h
    rw [ld_rB, iblk6_eq]
    exact congrFun (V_of m c main_arg17 (by decide)) _
  · intro q cc
    rw [ld_rW264, iblk7_eq]
    exact host_Wrf_logic m c q cc
  · rw [ld_mk1, iblk1_eq]
    exact host_sel m c _ 1

theorem pieceMove_eq (hr : Ranges m c) (t : Fin cfg0.N) (r : Fin 1024) (col : Fin 256) :
    pieceMove (iblk m c 0 t) (iblk m c 1 t) (iblk m c 8 t) (iblk m c 9 t) (iblk m c 10 t) (ix2 r col)
      = bandMove (aA m c) (aX m c) (aY m c) (aVal m c) (aOp m c) (aFu m c) (moveEmb m c) (moveW1 m c) (moveB1 m c) (moveWo m c)
          ⟨1024 * t.val + r.val, row_lt t r⟩ col := by
  unfold pieceMove
  refine (moveOf_apply _ _ _ _ _ _ _ _ _ _ _ _ _ r col
    (by rw [ldOp m c t r]; exact hr.Op _)
    (by rw [ldA m c t r]; exact hr.A _)
    (by rw [ldX m c t r]; exact hr.X _)
    (by rw [ldY m c t r]; exact hr.Y _)
    (by rw [ldVal m c t r]; exact hr.Val _)).trans ?_
  rw [ldOp m c t r, ldA m c t r, ldX m c t r, ldY m c t r, ldVal m c t r]
  unfold bandMove expert
  refine expertT_congr col ?_ ?_ ?_ (fun _ => rfl) ?_
  · intro i v h
    rw [slabs5, iblk8_eq]
    exact host_T_move m c i v h
  · intro h
    rw [ld_rB, iblk9_eq]
    exact congrFun (V_of m c main_arg22 (by decide)) _
  · intro q cc
    rw [ld_rW256, iblk10_eq]
    exact congrFun (host_Wo_move m c) _
  · rw [ld_mk2, iblk1_eq]
    exact host_sel m c _ 2

theorem pieceFlow_eq (hr : Ranges m c) (t : Fin cfg0.N) (r : Fin 1024) (col : Fin 256) :
    pieceFlow (iblk m c 0 t) (iblk m c 1 t) (iblk m c 11 t) (iblk m c 12 t) (iblk m c 13 t) (ix2 r col)
      = band6 3 (aPCH m c) (aPCL m c) (aP m c) (aVal m c) (aSP m c) (aOp m c) (aFu m c) (flowEmb m c) (flowW1 m c) (flowB1 m c) (flowWo m c)
          ⟨1024 * t.val + r.val, row_lt t r⟩ col := by
  unfold pieceFlow
  refine (flowOf_apply _ _ _ _ _ _ _ _ _ _ _ _ _ _ _ r col
    (by rw [ldOp m c t r]; exact hr.Op _)
    (by rw [ldPCH m c t r]; exact hr.PCH _)
    (by rw [ldPCL m c t r]; exact hr.PCL _)
    (by rw [ldP m c t r]; exact hr.P _)
    (by rw [ldVal m c t r]; exact hr.Val _)
    (by rw [ldSP m c t r]; exact hr.SP _)).trans ?_
  rw [ldOp m c t r, ldPCH m c t r, ldPCL m c t r, ldP m c t r, ldVal m c t r, ldSP m c t r]
  unfold band6 expert
  refine expertT_congr col ?_ ?_ ?_ (fun _ => rfl) ?_
  · intro i v h
    rw [slabs6, iblk11_eq]
    exact host_T_flow m c i v h
  · intro h
    rw [ld_rB, iblk12_eq]
    exact congrFun (V_of m c main_arg26 (by decide)) _
  · intro q cc
    rw [ld_rW256, iblk13_eq]
    exact congrFun (host_Wo_flow m c) _
  · rw [ld_mk3, iblk1_eq]
    exact host_sel m c _ 3

theorem pieceStack_eq (hr : Ranges m c) (t : Fin cfg0.N) (r : Fin 1024) (col : Fin 256) :
    pieceStack (iblk m c 0 t) (iblk m c 1 t) (iblk m c 14 t) (iblk m c 15 t) (iblk m c 16 t) (ix2 r col)
      = band6 4 (aA m c) (aX m c) (aSP m c) (aP m c) (aVal m c) (aOp m c) (aFu m c) (stackEmb m c) (stackW1 m c) (stackB1 m c) (stackWo m c)
          ⟨1024 * t.val + r.val, row_lt t r⟩ col := by
  unfold pieceStack
  refine (stackOf_apply _ _ _ _ _ _ _ _ _ _ _ _ _ _ _ r col
    (by rw [ldOp m c t r]; exact hr.Op _)
    (by rw [ldA m c t r]; exact hr.A _)
    (by rw [ldX m c t r]; exact hr.X _)
    (by rw [ldSP m c t r]; exact hr.SP _)
    (by rw [ldP m c t r]; exact hr.P _)
    (by rw [ldVal m c t r]; exact hr.Val _)).trans ?_
  rw [ldOp m c t r, ldA m c t r, ldX m c t r, ldSP m c t r, ldP m c t r, ldVal m c t r]
  unfold band6 expert
  refine expertT_congr col ?_ ?_ ?_ (fun _ => rfl) ?_
  · intro i v h
    rw [slabs6, iblk14_eq]
    exact host_T_stack m c i v h
  · intro h
    rw [ld_rB, iblk15_eq]
    exact congrFun (V_of m c main_arg30 (by decide)) _
  · intro q cc
    rw [ld_rW256, iblk16_eq]
    exact congrFun (host_Wo_stack m c) _
  · rw [ld_mk4, iblk1_eq]
    exact host_sel m c _ 4

end Cert.KernelIdeal.Hand

end
-- ==== Proof.SpecResult.lean ====
import proofs.«403230_j21208548507705_2_alg».proof.Proof.Spec

noncomputable section

namespace Cert.Moe

open Idealize.ShloMosaic Idealize.ShloMosaic.ValueIdx

def result (A X Y SP P PCH PCL Op Val : IdxVec) (fuMap : (⟨1, ![256]⟩ : Shape).Idx → BitVec 32)
    (aluEmb : (⟨3, ![4, 256, 64]⟩ : Shape).Idx → EReal) (aluW1 : (⟨2, ![256, 512]⟩ : Shape).Idx → EReal) (aluB1 : (⟨1, ![512]⟩ : Shape).Idx → EReal)
    (aluWr : (⟨2, ![512, 256]⟩ : Shape).Idx → EReal) (aluWf : (⟨2, ![512, 8]⟩ : Shape).Idx → EReal)
    (logicEmb : (⟨3, ![4, 256, 64]⟩ : Shape).Idx → EReal) (logicW1 : (⟨2, ![256, 512]⟩ : Shape).Idx → EReal) (logicB1 : (⟨1, ![512]⟩ : Shape).Idx → EReal)
    (logicWr : (⟨2, ![512, 256]⟩ : Shape).Idx → EReal) (logicWf : (⟨2, ![512, 8]⟩ : Shape).Idx → EReal)
    (moveEmb : (⟨3, ![5, 256, 64]⟩ : Shape).Idx → EReal) (moveW1 : (⟨2, ![320, 512]⟩ : Shape).Idx → EReal) (moveB1 : (⟨1, ![512]⟩ : Shape).Idx → EReal)
    (moveWo : (⟨2, ![512, 256]⟩ : Shape).Idx → EReal)
    (flowEmb : (⟨3, ![6, 256, 64]⟩ : Shape).Idx → EReal) (flowW1 : (⟨2, ![384, 512]⟩ : Shape).Idx → EReal) (flowB1 : (⟨1, ![512]⟩ : Shape).Idx → EReal)
    (flowWo : (⟨2, ![512, 256]⟩ : Shape).Idx → EReal)
    (stackEmb : (⟨3, ![6, 256, 64]⟩ : Shape).Idx → EReal) (stackW1 : (⟨2, ![384, 512]⟩ : Shape).Idx → EReal) (stackB1 : (⟨1, ![512]⟩ : Shape).Idx → EReal)
    (stackWo : (⟨2, ![512, 256]⟩ : Shape).Idx → EReal)
    (n : Fin 65536) (col : Fin 1296) : EReal :=
  if h0 : col.val < 264 then band264 0 A Val P Op fuMap aluEmb aluW1 aluB1 aluWr aluWf n ⟨col.val, h0⟩
  else if h1 : col.val < 528 then band264 1 A Val P Op fuMap logicEmb logicW1 logicB1 logicWr logicWf n ⟨col.val - 264, by omega⟩
  else if h2 : col.val < 784 then bandMove A X Y Val Op fuMap moveEmb moveW1 moveB1 moveWo n ⟨col.val - 528, by omega⟩
  else if h3 : col.val < 1040 then band6 3 PCH PCL P Val SP Op fuMap flowEmb flowW1 flowB1 flowWo n ⟨col.val - 784, by omega⟩
  else band6 4 A X SP P Val Op fuMap stackEmb stackW1 stackB1 stackWo n ⟨col.val - 1040, by have := col.isLt; omega⟩

end Cert.Moe

end
-- ==== Proof.KIValue.lean ====
import proofs.«403230_j21208548507705_2_alg».proof.Proof.KIRun
import proofs.«403230_j21208548507705_2_alg».proof.Proof.KIReads
import proofs.«403230_j21208548507705_2_alg».proof.Proof.KICanon
import proofs.«403230_j21208548507705_2_alg».proof.Proof.KIBands
import proofs.«403230_j21208548507705_2_alg».proof.Proof.SpecResult
import proofs.«403230_j21208548507705_2_alg».proof.Proof.KIArgs
import Idealize.ShloMosaic.Lib.Pipeline.Value
import Idealize.ShloMosaic.Lib.ValueIdx

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.Moe

variable (m : (ℓ : Loc nD τ sig) → Buf (Elt Ideal) ℓ) (c : Dev nD)

def specAt (n : Fin 65536) (col : Fin 1296) : EReal :=
  Cert.Moe.result (aA m c) (aX m c) (aY m c) (aSP m c) (aP m c) (aPCH m c) (aPCL m c) (aOp m c) (aVal m c) (aFu m c) (aluEmb m c) (aluW1 m c) (aluB1 m c) (aluWr m c) (aluWf m c) (logicEmb m c) (logicW1 m c) (logicB1 m c) (logicWr m c) (logicWf m c) (moveEmb m c) (moveW1 m c) (moveB1 m c) (moveWo m c) (flowEmb m c) (flowW1 m c) (flowB1 m c) (flowWo m c) (stackEmb m c) (stackW1 m c) (stackB1 m c) (stackWo m c) n col

def specArr : Vec Ideal S65536x1296 .f32 := fun j => specAt m c (j 0) (j 1)

theorem out_entry (hr : Ranges m c) (t : Fin cfg0.N) (r : Fin 1024) (jc : Fin 1296) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (ix2 r jc) = specAt m c ⟨1024 * t.val + r.val, row_lt t r⟩ jc := by
  have hj := jc.isLt
  unfold specAt Cert.Moe.result
  by_cases h0 : jc.val < 264
  · rw [dif_pos h0]; exact (out0_17_alu _ _ _ _ _ _ _ _ _ _ _ _ _ _ _ _ _ r ⟨jc.val, h0⟩).trans (pieceAlu_eq m c hr t r _)
  rw [dif_neg h0]
  by_cases h1 : jc.val < 528
  · rw [dif_pos h1, show ix2 r jc = ix2 r (⟨264 + (⟨jc.val - 264, by omega⟩ : Fin 264).val, by omega⟩ : Fin 1296) from
      congrArg _ (Fin.ext (by show jc.val = 264 + (jc.val - 264); omega)), out0_17_logic, pieceLogic_eq m c hr t r]
  rw [dif_neg h1]
  by_cases h2 : jc.val < 784
  · rw [dif_pos h2, show ix2 r jc = ix2 r (⟨528 + (⟨jc.val - 528, by omega⟩ : Fin 256).val, by omega⟩ : Fin 1296) from
      congrArg _ (Fin.ext (by show jc.val = 528 + (jc.val - 528); omega)), out0_17_move, pieceMove_eq m c hr t r]
  rw [dif_neg h2]
  by_cases h3 : jc.val < 1040
  · rw [dif_pos h3, show ix2 r jc = ix2 r (⟨784 + (⟨jc.val - 784, by omega⟩ : Fin 256).val, by omega⟩ : Fin 1296) from
      congrArg _ (Fin.ext (by show jc.val = 784 + (jc.val - 784); omega)), out0_17_flow, pieceFlow_eq m c hr t r]
  rw [dif_neg h3]
  rw [show ix2 r jc = ix2 r (⟨1040 + (⟨jc.val - 1040, by omega⟩ : Fin 256).val, by omega⟩ : Fin 1296) from
    congrArg _ (Fin.ext (by show jc.val = 1040 + (jc.val - 1040); omega)), out0_17_stack, pieceStack_eq m c hr t r]

theorem flushed_eq (hr : Ranges m c) (t : Fin cfg0.N) :
    (dats m 0 c).flushed 17 t = ((cfg0.win 17).blk t).view.read (Elt Ideal) (specArr m c) := by
  show (cfg0.win 17).cut (grid0.coords t) ((dats m 0 c).after 17 t) = _
  rw [after0_17]
  funext y
  rw [blk17_read]
  obtain ⟨r, jc, rfl⟩ : ∃ (r : Fin 1024) (jc : Fin 1296), y = ix2 r jc := ⟨y 0, y 1, eq_ix2 y⟩
  exact out_entry m c hr t r jc

theorem final (hr : Ranges m c) : ((dats m 0 c).arrAt 17 cfg0.N : S65536x1296.Idx → EReal) = specArr m c :=
  (dats m 0 c).arrAt_eq_of_cover 17 (specArr m c) (fun t _ => flushed_eq m c hr t) cover17

end Cert.KernelIdeal.Hand

end
-- ==== Proof.KIValueOf.lean ====
import proofs.«403230_j21208548507705_2_alg».proof.Proof.KIPrefix

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

theorem value_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_v179) = (dats 0 c).arrAt 17 cfg0.N ∧ ArgsKept m r.2.mem c) :=
  (θ_run defs _ _).mono (fun _ h c => ⟨(h c).1 17, kept_of m dats hA h c⟩) h

end Cert.KernelIdeal.Hand

end
-- ==== Proof.KIPre.lean ====
import proofs.«403230_j21208548507705_2_alg».proof.Defs
import proofs.«403230_j21208548507705_2_alg».proof.Proof.KIArgs
import proofs.«403230_j21208548507705_2_alg».proof.Proof.Gen.Pre_finite_inputs
import Idealize.ShloMosaic.Lib.ReduceAll
import Idealize.ShloMosaic.Lib.StableHlo.Predicate

namespace Cert.KernelIdeal.Hand

open Idealize.ShloMosaic Idealize.ShloMosaic.TcCoe Idealize.SL.Sem Idealize.ShloMosaic.ValueIdx
open Cert.KernelIdeal

local instance pre_scalarIdx_subsingleton : Subsingleton Cert.Pre_finite_inputs.S_.Idx :=
  ⟨fun a b => funext fun d => d.elim0⟩

theorem pre_byte_of_tests (w : BitVec 32) (h0 : IntOp.cmpi .sge w 0#32 = 1#1)
    (h1 : IntOp.cmpi .slt w 256#32 = 1#1) : w.toNat < 256 := by
  rw [IntOp.cmpi_sge] at h0
  rw [IntOp.cmpi_slt] at h1
  have z : (0#32 : BitVec 32).toInt = 0 := by decide
  have t : (256#32 : BitVec 32).toInt = 256 := by decide
  rw [z] at h0; rw [t] at h1
  have hw := BitVec.toInt_eq_toNat_cond w
  have hlt := w.isLt
  split at hw <;> omega

open Cert.Pre_finite_inputs in

theorem pre_inRange_of_test [Cert.Pre_finite_inputs.Facts] (a : IVec S65536 32) (init : IVec S_ 1)
    (e : Host.reduce IntOp.andi
          (andi (cmpi .sge a (broadcastInDim S65536 ![] Facts.bcast_S_S65536 (constantI S_ 32 0#32)))
                (cmpi .slt a (broadcastInDim S65536 ![] Facts.bcast_S_S65536 (constantI S_ 32 256#32))))
          init Facts.reducesTo_S65536_S_d0 Facts.h_S_ ix0 = 1#1) :
    Cert.Moe.InRange a := by
  intro n

  have hn := Host.reduce_andi_all _ _ _ _ _ e (ix1 n)

  simp only [andi, cmpi, broadcastInDim, constantI] at hn
  obtain ⟨h0, h1⟩ := IntOp.andi_eq_one.1 hn
  exact pre_byte_of_tests _ h0 h1

theorem pre_and_at (x y : IVec Cert.Pre_finite_inputs.S_ 1) (h : andi x y ix0 = 1#1) :
    x ix0 = 1#1 ∧ y ix0 = 1#1 :=
  IntOp.andi_eq_one.1 h

theorem ranges_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : Ranges m c := by

  have hc := congrFun (h c) ix0

  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8,
    Cert.Pre_finite_inputs.fn_part9, Cert.Pre_finite_inputs.fn_part10] at hc

  obtain ⟨hc, t8⟩ := pre_and_at _ _ hc
  obtain ⟨hc, t7⟩ := pre_and_at _ _ hc
  obtain ⟨hc, t6⟩ := pre_and_at _ _ hc
  obtain ⟨hc, t5⟩ := pre_and_at _ _ hc
  obtain ⟨hc, t4⟩ := pre_and_at _ _ hc
  obtain ⟨hc, t3⟩ := pre_and_at _ _ hc
  obtain ⟨hc, t2⟩ := pre_and_at _ _ hc
  obtain ⟨hc, t1⟩ := pre_and_at _ _ hc
  obtain ⟨_, t0⟩ := pre_and_at _ _ hc
  exact ⟨pre_inRange_of_test _ _ t0, pre_inRange_of_test _ _ t1, pre_inRange_of_test _ _ t2,
    pre_inRange_of_test _ _ t3, pre_inRange_of_test _ _ t4, pre_inRange_of_test _ _ t5,
    pre_inRange_of_test _ _ t6, pre_inRange_of_test _ _ t7, pre_inRange_of_test _ _ t8⟩

end Cert.KernelIdeal.Hand
-- ==== Proof.RArgs.lean ====
import proofs.«403230_j21208548507705_2_alg».proof.Proof.Gen.ReferenceIdeal
import proofs.«403230_j21208548507705_2_alg».proof.Proof.Spec

noncomputable section

namespace Cert.ReferenceIdeal.Hand

open Idealize.ShloMosaic Idealize.ShloMosaic.TcCoe Idealize.SL.Sem Idealize.ShloMosaic.ValueIdx
open Cert.ReferenceIdeal

variable (m : (ℓ : Loc nD τ sig) → Buf (Elt Ideal) ℓ) (c : Dev nD)

abbrev aA : Cert.Moe.IdxVec := m ((c : Thread nD τ).loc main_arg0)
abbrev aX : Cert.Moe.IdxVec := m ((c : Thread nD τ).loc main_arg1)
abbrev aY : Cert.Moe.IdxVec := m ((c : Thread nD τ).loc main_arg2)
abbrev aSP : Cert.Moe.IdxVec := m ((c : Thread nD τ).loc main_arg3)
abbrev aP : Cert.Moe.IdxVec := m ((c : Thread nD τ).loc main_arg4)
abbrev aPCH : Cert.Moe.IdxVec := m ((c : Thread nD τ).loc main_arg5)
abbrev aPCL : Cert.Moe.IdxVec := m ((c : Thread nD τ).loc main_arg6)
abbrev aOp : Cert.Moe.IdxVec := m ((c : Thread nD τ).loc main_arg7)
abbrev aVal : Cert.Moe.IdxVec := m ((c : Thread nD τ).loc main_arg8)
abbrev aFu : (⟨1, ![256]⟩ : Shape).Idx → BitVec 32 := m ((c : Thread nD τ).loc main_arg9)
abbrev aluEmb : (⟨3, ![4, 256, 64]⟩ : Shape).Idx → EReal := m ((c : Thread nD τ).loc main_arg10)
abbrev aluW1 : (⟨2, ![256, 512]⟩ : Shape).Idx → EReal := m ((c : Thread nD τ).loc main_arg11)
abbrev aluB1 : (⟨1, ![512]⟩ : Shape).Idx → EReal := m ((c : Thread nD τ).loc main_arg12)
abbrev aluWr : (⟨2, ![512, 256]⟩ : Shape).Idx → EReal := m ((c : Thread nD τ).loc main_arg13)
abbrev aluWf : (⟨2, ![512, 8]⟩ : Shape).Idx → EReal := m ((c : Thread nD τ).loc main_arg14)
abbrev logicEmb : (⟨3, ![4, 256, 64]⟩ : Shape).Idx → EReal := m ((c : Thread nD τ).loc main_arg15)
abbrev logicW1 : (⟨2, ![256, 512]⟩ : Shape).Idx → EReal := m ((c : Thread nD τ).loc main_arg16)
abbrev logicB1 : (⟨1, ![512]⟩ : Shape).Idx → EReal := m ((c : Thread nD τ).loc main_arg17)
abbrev logicWr : (⟨2, ![512, 256]⟩ : Shape).Idx → EReal := m ((c : Thread nD τ).loc main_arg18)
abbrev logicWf : (⟨2, ![512, 8]⟩ : Shape).Idx → EReal := m ((c : Thread nD τ).loc main_arg19)
abbrev moveEmb : (⟨3, ![5, 256, 64]⟩ : Shape).Idx → EReal := m ((c : Thread nD τ).loc main_arg20)
abbrev moveW1 : (⟨2, ![320, 512]⟩ : Shape).Idx → EReal := m ((c : Thread nD τ).loc main_arg21)
abbrev moveB1 : (⟨1, ![512]⟩ : Shape).Idx → EReal := m ((c : Thread nD τ).loc main_arg22)
abbrev moveWo : (⟨2, ![512, 256]⟩ : Shape).Idx → EReal := m ((c : Thread nD τ).loc main_arg23)
abbrev flowEmb : (⟨3, ![6, 256, 64]⟩ : Shape).Idx → EReal := m ((c : Thread nD τ).loc main_arg24)
abbrev flowW1 : (⟨2, ![384, 512]⟩ : Shape).Idx → EReal := m ((c : Thread nD τ).loc main_arg25)
abbrev flowB1 : (⟨1, ![512]⟩ : Shape).Idx → EReal := m ((c : Thread nD τ).loc main_arg26)
abbrev flowWo : (⟨2, ![512, 256]⟩ : Shape).Idx → EReal := m ((c : Thread nD τ).loc main_arg27)
abbrev stackEmb : (⟨3, ![6, 256, 64]⟩ : Shape).Idx → EReal := m ((c : Thread nD τ).loc main_arg28)
abbrev stackW1 : (⟨2, ![384, 512]⟩ : Shape).Idx → EReal := m ((c : Thread nD τ).loc main_arg29)
abbrev stackB1 : (⟨1, ![512]⟩ : Shape).Idx → EReal := m ((c : Thread nD τ).loc main_arg30)
abbrev stackWo : (⟨2, ![512, 256]⟩ : Shape).Idx → EReal := m ((c : Thread nD τ).loc main_arg31)

structure Ranges : Prop where
  A : Cert.Moe.InRange (aA m c)
  X : Cert.Moe.InRange (aX m c)
  Y : Cert.Moe.InRange (aY m c)
  SP : Cert.Moe.InRange (aSP m c)
  P : Cert.Moe.InRange (aP m c)
  PCH : Cert.Moe.InRange (aPCH m c)
  PCL : Cert.Moe.InRange (aPCL m c)
  Op : Cert.Moe.InRange (aOp m c)
  Val : Cert.Moe.InRange (aVal m c)

end Cert.ReferenceIdeal.Hand

end
-- ==== Proof.RLib.lean ====
import proofs.«403230_j21208548507705_2_alg».proof.Proof.RArgs
import proofs.«403230_j21208548507705_2_alg».proof.Proof.Gen.ReferenceIdeal.Run
import Idealize.ShloMosaic.PureOps.Ideal.Laws
import Idealize.ShloMosaic.Lib.Pipeline.Value
import Idealize.ShloMosaic.Lib.StableHlo.Predicate
import Idealize.ShloMosaic.Lib.StackMember

noncomputable section

namespace Cert.ReferenceIdeal.Hand

open Idealize.ShloMosaic Idealize.ShloMosaic.TcCoe Idealize.SL.Sem Idealize.ShloMosaic.ValueIdx Idealize.ShloMosaic.StableHlo Idealize.ShloMosaic.StackMember
open Cert.ReferenceIdeal Cert.ReferenceIdeal.Gen Cert.ReferenceIdeal.Value Cert.Moe
open scoped BigOperators

theorem ofFin_eq_ix1 {n : Nat} (p : Fin n) : Shape.Idx.ofFin p = ix1 p :=
  funext fun a => match a with | ⟨0, _⟩ => rfl

theorem wrap_word (x c : BitVec 32) (hx : x.toNat < 2 ^ 31) :
    Scalar.select (IntOp.cmpi .slt x 0#32) (IntOp.addi x c) x = x := by
  rw [eq_zero_of_ne_one fun h1 => absurd ((Predicate.slt_iff_toNat hx (by decide)).mp h1) (by simp)]
  exact select_zero _ _

theorem clamp_word (x : BitVec 32) (N : ℕ) (hx : x.toNat < N) (hN : N ≤ 2 ^ 31) : min x.toInt.toNat (N - 1) = x.toNat := by
  rw [Predicate.toInt_eq_toNat_of_lt (by omega), Int.toNat_natCast]
  omega

theorem fin_val_if {k : ℕ} (i : Fin k) : i.val = if k = 1 then 0 else i.val := by
  split <;> omega

abbrev pairDims (k : ℕ) (wf : GatherDims.WF (⟨3, ![k, 256, 64]⟩ : Shape) (⟨3, ![k, 65536, 2]⟩ : Shape) (⟨3, ![k, 65536, 64]⟩ : Shape) [2] [0, 1] [] [0, 1] [] 2 ![1, 1, 64]) :
    GatherDims (⟨3, ![k, 256, 64]⟩ : Shape) (⟨3, ![k, 65536, 2]⟩ : Shape) (⟨3, ![k, 65536, 64]⟩ : Shape) where
  offsetDims := [2]
  collapsedSliceDims := [0, 1]
  operandBatchingDims := []
  startIndicesBatchingDims := []
  startIndexMap := [0, 1]
  indexVectorDim := 2
  sliceSizes := ![1, 1, 64]
  wf := wf

theorem pair_gather {k : ℕ} (hk : k ≤ 2 ^ 31) (wf) (emb : FVec Ideal (⟨3, ![k, 256, 64]⟩ : Shape) .f32) (idx : IVec (⟨3, ![k, 65536, 2]⟩ : Shape) 32)
    (i : Fin k) (n : Fin 65536) (d : Fin 64) (v : Fin 256)
    (h0 : (idx (ix3 i n (0 : Fin 2))).toNat = i.val) (h1 : (idx (ix3 i n (1 : Fin 2))).toNat = v.val) :
    Host.gather (pairDims k wf) emb idx (ix3 i n d) = emb (ix3 i v d) := by
  unfold Host.gather
  refine congrArg emb (funext fun a => Fin.ext ?_)
  show (pairDims k wf).start (ix3 i n d) idx a + (pairDims k wf).batchCoord (ix3 i n d) a + (pairDims k wf).offCoord (ix3 i n d) a = _
  rw [GatherDims.batchCoord_eq_zero _ _ _ List.not_mem_nil, Nat.add_zero]
  have hsi : ∀ p : Fin 2, (pairDims k wf).siIdx (ix3 i n d) p = ix3 i n p := fun p => funext fun c => Fin.ext (by
    match c with
    | ⟨0, _⟩ => rfl
    | ⟨1, _⟩ => rfl
    | ⟨2, _⟩ => rfl)
  match a with
  | ⟨0, h⟩ =>
    have hm : (⟨0, h⟩ : Fin 3) ∈ (pairDims k wf).startIndexMap := List.mem_cons_self
    rw [GatherDims.offCoord_eq_zero _ _ _ (fun h' => ((GatherDims.mem_sKept _ _).mp h').1 hm), Nat.add_zero]
    unfold GatherDims.start
    rw [dif_pos hm, hsi]
    exact (clamp_word _ k (h0 ▸ i.isLt) hk).trans h0
  | ⟨1, h⟩ =>
    have hm : (⟨1, h⟩ : Fin 3) ∈ (pairDims k wf).startIndexMap := List.mem_cons_of_mem _ List.mem_cons_self
    rw [GatherDims.offCoord_eq_zero _ _ _ (fun h' => ((GatherDims.mem_sKept _ _).mp h').1 hm), Nat.add_zero]
    unfold GatherDims.start
    rw [dif_pos hm, hsi]
    exact (clamp_word _ 256 (h1 ▸ v.isLt) (by decide)).trans h1
  | ⟨2, h⟩ =>
    have hm : (⟨2, h⟩ : Fin 3) ∉ (pairDims k wf).startIndexMap := fun h' => by
      rcases List.mem_cons.1 h' with e | h'
      · exact absurd (congrArg Fin.val e) (show (2 : Nat) ≠ 0 by decide)
      · exact absurd (congrArg Fin.val (List.mem_singleton.1 h')) (show (2 : Nat) ≠ 1 by decide)
    unfold GatherDims.start
    rw [dif_neg hm, Nat.zero_add]
    rfl

section Slots

variable {k K : ℕ}

theorem stack_apply (a : Fin k → IVec S65536 32) (h) (i : Fin k) (n : Fin 65536) :
    concatenate (⟨2, ![k, 65536]⟩ : Shape) 0 (List.ofFn fun i => ⟨S1x65536, broadcastInDim S1x65536 ![1] bcast_S65536_S1x65536_1 (a i)⟩) h (ix2 i n)
      = a i (ix1 n) :=
  (concatenate_ofFn_unit_apply (t := (⟨2, ![k, 65536]⟩ : Shape)) 0 _ h rfl rfl (ix2 i n) i rfl (ix2 (0 : Fin 1) n) fun b hb => by
    match b with
    | ⟨0, _⟩ => exact absurd rfl hb
    | ⟨1, _⟩ => rfl).trans
  (broadcastInDim_apply _ _ _ _ (ix1 n) fun a => by match a with | ⟨0, _⟩ => rfl)

theorem slot_apply (h) (i : Fin k) :
    broadcastInDim (⟨2, ![k, 1]⟩ : Shape) ![0] h (iotaInDim (⟨1, ![k]⟩ : Shape) 32 0) (ix2 i (0 : Fin 1)) = BitVec.ofNat 32 i.val :=
  (broadcastInDim_apply _ _ _ _ (ix1 i) fun a => by match a with | ⟨0, _⟩ => exact fin_val_if i).trans rfl

def wrapV {s : Shape} (x : IVec s 32) (c : BitVec 32) (h0 h1 : S_.BroadcastsInDim s ![]) : IVec s 32 :=
  select (cmpi .slt x (broadcastInDim s ![] h0 (constantI S_ 32 0#32))) (addi x (broadcastInDim s ![] h1 (constantI S_ 32 c))) x

theorem wrap_apply {s : Shape} (x : IVec s 32) (c : BitVec 32) (h0 h1) (i : s.Idx) (hx : (x i).toNat < 2 ^ 31) :
    wrapV x c h0 h1 i = x i :=
  wrap_word _ _ hx

theorem pre_apply (hk : k ≤ 256) (row : Fin k → Fin 64 → Fin K) (hrow : ∀ i d, (row i d).val = i.val * 64 + d.val)
    (hsum : ∀ f : Fin K → EReal, ∑ j, f j = ∑ i, ∑ d, f (row i d)) (hK : K = k * 64)
    {G : GatherDims (⟨3, ![k, 256, 64]⟩ : Shape) (⟨3, ![k, 65536, 2]⟩ : Shape) (⟨3, ![k, 65536, 64]⟩ : Shape)} {wf} (hG : G = pairDims k wf)
    {D : DotDims (⟨2, ![65536, K]⟩ : Shape) (⟨2, ![K, 512]⟩ : Shape) S65536x512} (hD : D = DotDims.plain 65536 K 512)
    (emb : FVec Ideal (⟨3, ![k, 256, 64]⟩ : Shape) .f32) (W1 : FVec Ideal (⟨2, ![K, 512]⟩ : Shape) .f32) (b1 : FVec Ideal S512 .f32)
    {slot : IVec (⟨2, ![k, 1]⟩ : Shape) 32} {stk : IVec (⟨2, ![k, 65536]⟩ : Shape) 32} (c : BitVec 32) (n : Fin 65536)
    (a : Fin k → IVec S65536 32) {gi gs} (hslot : slot = broadcastInDim (⟨2, ![k, 1]⟩ : Shape) ![0] gi (iotaInDim (⟨1, ![k]⟩ : Shape) 32 0))
    (hstk : stk = concatenate (⟨2, ![k, 65536]⟩ : Shape) 0 (List.ofFn fun i => ⟨S1x65536, broadcastInDim S1x65536 ![1] bcast_S65536_S1x65536_1 (a i)⟩) gs)
    {ids : Fin k → Fin 256} (hids : ∀ i, ids i = byteOf (a i (ix1 n))) (ha : ∀ i, (a i (ix1 n)).toNat < 256)
    (q : Fin 512) {g0 g1 g2 g3 g4 g5 g6 g7 g8 g9} :
    (addf (Host.dotGeneral D none
      (shapeCast (⟨2, ![65536, K]⟩ : Shape) (transpose (⟨3, ![65536, k, 64]⟩ : Shape) [1, 0, 2]
        (Host.gather G emb
          (concatenate (⟨3, ![k, 65536, 2]⟩ : Shape) 2
            [⟨(⟨3, ![k, 65536, 1]⟩ : Shape), (broadcastInDim (⟨3, ![k, 65536, 1]⟩ : Shape) ![0, 1] g0
                (broadcastInDim (⟨2, ![k, 65536]⟩ : Shape) ![0, 1] g1
                  (wrapV slot c g2 g3)))⟩,
             ⟨(⟨3, ![k, 65536, 1]⟩ : Shape), (broadcastInDim (⟨3, ![k, 65536, 1]⟩ : Shape) ![0, 1] g4
                (wrapV stk 256#32 g5 g6))⟩]
            g7)) g8) g9) W1)
      (broadcastInDim S65536x512 ![0, 1] bcast_S1x512_S65536x512_0_1 (broadcastInDim S1x512 ![1] bcast_S512_S1x512_1 b1)))
      (ix2 n q)
      = preT (fuse (fun i v d => emb (ix3 i v d)) (fun i d h => W1 (ix2 (row i d) h))) (fun h => b1 (ix1 h))
          ids q := by
  subst hG hD
  have hstk' : ∀ i : Fin k, stk (ix2 i n) = a i (ix1 n) := fun i => by rw [hstk, stack_apply]
  have hslot' : ∀ i : Fin k, slot (ix2 i (0 : Fin 1)) = BitVec.ofNat 32 i.val := fun i => by rw [hslot, slot_apply]
  rw [addf_apply, dotGeneral_plain_apply, hsum]
  unfold preT fuse
  refine congrArg₂ (· + ·) (Finset.sum_congr rfl fun i _ => Finset.sum_congr rfl fun d _ => congrArg (· * W1 (ix2 (row i d) q)) ?_) ?_
  · have hi := i.isLt
    refine (shapeCast_apply _ _ (ix2 n (row i d)) (ix3 n i d) ?_).trans ((transpose_apply _ _ _ (ix3 n i d) (ix3 i n d) fun b => ?_).trans
      (pair_gather (by omega) wf emb _ i n d (ids i) ?_ ?_))
    · rw [Shape.rowMajor_val_three, Shape.rowMajor_val_two]
      show (n.val * k + i.val) * 64 + d.val = n.val * K + (row i d).val
      rw [hrow, hK, Nat.add_mul, Nat.mul_assoc, Nat.add_assoc]
    · match b with
      | ⟨0, _⟩ => rfl
      | ⟨1, _⟩ => rfl
      | ⟨2, _⟩ => rfl
    · rw [concatenate_pair_apply_left (s₁ := (⟨3, ![k, 65536, 1]⟩ : Shape)) (s₂ := (⟨3, ![k, 65536, 1]⟩ : Shape)) _ _ _ _ (ix3 i n (0 : Fin 2)) rfl (ix3 i n (0 : Fin 1))
          (fun b => by match b with | ⟨0, _⟩ => rfl | ⟨1, _⟩ => rfl | ⟨2, _⟩ => rfl),
        broadcastInDim_apply _ _ _ (ix3 i n (0 : Fin 1)) (ix2 i n) (fun a => by match a with | ⟨0, _⟩ => exact fin_val_if i | ⟨1, _⟩ => rfl),
        broadcastInDim_apply _ _ _ (ix2 i n) (ix2 i (0 : Fin 1)) (fun a => by match a with | ⟨0, _⟩ => exact fin_val_if i | ⟨1, _⟩ => rfl),
        wrap_apply _ _ _ _ _ (by rw [hslot', BitVec.toNat_ofNat]; omega), hslot', BitVec.toNat_ofNat]
      omega
    · rw [concatenate_pair_apply_right (s₁ := (⟨3, ![k, 65536, 1]⟩ : Shape)) (s₂ := (⟨3, ![k, 65536, 1]⟩ : Shape)) _ _ _ _ (ix3 i n (1 : Fin 2)) rfl rfl (ix3 i n (0 : Fin 1))
          (fun b hb => by match b with | ⟨0, _⟩ => rfl | ⟨1, _⟩ => rfl | ⟨2, _⟩ => exact absurd rfl hb) rfl,
        broadcastInDim_apply _ _ _ (ix3 i n (0 : Fin 1)) (ix2 i n) (fun a => by match a with | ⟨0, _⟩ => exact fin_val_if i | ⟨1, _⟩ => rfl),
        wrap_apply _ _ _ _ _ (by rw [hstk']; have := ha i; omega), hstk', hids]
      exact (byteOf_val_of_lt (ha i)).symm
  · exact (broadcastInDim_apply _ _ _ (ix2 n q) (ix2 (0 : Fin 1) q) fun a => by match a with | ⟨0, _⟩ => rfl | ⟨1, _⟩ => rfl).trans
      (broadcastInDim_apply _ _ _ _ (ix1 q) fun a => by match a with | ⟨0, _⟩ => rfl)

end Slots

theorem routed_apply (fuMap : IVec S256 32) (op : IVec S65536 32) (n : Fin 65536) (hop : (op (ix1 n)).toNat < 256) :
    Host.gather gather_S256_S65536x1_S65536_n_0_n_n_0_1_1 fuMap
      (broadcastInDim S65536x1 ![0] bcast_S65536_S65536x1_0
        (wrapV op 256#32 bcast_S_S65536 bcast_S_S65536)) (ix1 n)
      = routed fuMap op n := by
  generalize hdef : broadcastInDim S65536x1 ![0] bcast_S65536_S65536x1_0
      (wrapV op 256#32 bcast_S_S65536 bcast_S_S65536) = idx
  have hidx : idx (Predicate.ixP n) = op (ix1 n) := by
    rw [← hdef, Predicate.bcast_col1, ofFin_eq_ix1]
    exact wrap_apply _ _ _ _ _ (by omega)
  have hg := Predicate.gather_take gather_S256_S65536x1_S65536_n_0_n_n_0_1_1 rfl rfl rfl rfl fuMap idx n (by decide)
  rw [ofFin_eq_ix1] at hg
  rw [hg, ofFin_eq_ix1]
  refine congrArg fuMap (congrArg ix1 (Fin.ext ?_))
  show min (idx (Predicate.ixP n)).toInt.toNat (256 - 1) = (op (ix1 n)).toNat % 256
  rw [hidx, clamp_word _ 256 hop (by decide), Nat.mod_eq_of_lt hop]

def geluV (x : FVec Ideal S65536x512 .f32) : FVec Ideal S65536x512 .f32 :=
  mulf x (mulf (broadcastInDim S65536x512 ![] bcast_S_S65536x512 (constant (F := Ideal) S_ .f32 0x3F000000#32))
    (addf (broadcastInDim S65536x512 ![] bcast_S_S65536x512 (constant (F := Ideal) S_ .f32 0x3F800000#32))
      (Host.tanh (mulf (broadcastInDim S65536x512 ![] bcast_S_S65536x512 (constant (F := Ideal) S_ .f32 0x3F4C422A#32))
        (addf x (mulf (broadcastInDim S65536x512 ![] bcast_S_S65536x512 (constant (F := Ideal) S_ .f32 0x3D372713#32))
          (mulf (mulf x x) x)))))))

theorem geluV_apply (x : FVec Ideal S65536x512 .f32) (j : S65536x512.Idx) : geluV x j = gelu (x j) := rfl

def maskV {C : Nat} (h2 : S65536x1.BroadcastsInDim (⟨2, ![65536, C]⟩ : Shape) ![0, 1]) (fu : IVec S65536 32) (e : ℕ) :
    FVec Ideal (⟨2, ![65536, C]⟩ : Shape) .f32 :=
  broadcastInDim (⟨2, ![65536, C]⟩ : Shape) ![0, 1] h2 (uitofp (F := Ideal) .f32 (broadcastInDim S65536x1 ![0] bcast_S65536_S65536x1_0
    (cmpi .eq fu (broadcastInDim S65536 ![] bcast_S_S65536 (constantI S_ 32 (BitVec.ofNat 32 e))))))

theorem mask_apply {C : Nat} (h2) (fu : IVec S65536 32) (e : ℕ) (n : Fin 65536) (col : Fin C) :
    maskV h2 fu e (ix2 n col) = sel e (fu (ix1 n)) := by
  unfold maskV
  refine (broadcastInDim_apply _ h2 _ (ix2 n col) (ix2 n (0 : Fin 1)) fun a => by match a with | ⟨0, _⟩ => rfl | ⟨1, _⟩ => rfl).trans ?_
  show (FloatOps.uitofp (F := Ideal) .f32 (broadcastInDim S65536x1 ![0] bcast_S65536_S65536x1_0 (cmpi .eq fu (broadcastInDim S65536 ![] bcast_S_S65536 (constantI S_ 32 (BitVec.ofNat 32 e)))) (ix2 n (0 : Fin 1))) : EReal) = _
  rw [broadcastInDim_apply _ _ _ (ix2 n (0 : Fin 1)) (ix1 n) fun a => by match a with | ⟨0, _⟩ => rfl]
  show (((IntOp.cmpi .eq (fu (ix1 n)) (BitVec.ofNat 32 e)).toNat : ℝ) : EReal) = _
  unfold sel
  by_cases hfe : fu (ix1 n) = BitVec.ofNat 32 e
  · rw [if_pos hfe, hfe]
    simp [IntOp.cmpi]
  · rw [if_neg hfe]
    simp [IntOp.cmpi, hfe]

theorem expert_apply {k C : ℕ} (T : Fin k → Fin 256 → Fin 512 → EReal) (b1 : Fin 512 → EReal) (ids : Fin k → Fin 256)
    (pre : FVec Ideal S65536x512 .f32) (fu : IVec S65536 32) (r : BitVec 32) (e : ℕ) (n : Fin 65536) (col : Fin C)
    (hpre : ∀ q, pre (ix2 n q) = preT T b1 ids q) (hfu : fu (ix1 n) = r) (h2)
    (out : FVec Ideal (⟨2, ![65536, C]⟩ : Shape) .f32) (Wo : Fin 512 → Fin C → EReal)
    (hout : out (ix2 n col) = ∑ q : Fin 512, geluV pre (ix2 n q) * Wo q col) :
    mulf out (maskV h2 fu e) (ix2 n col) = expertT T b1 Wo ids (sel e r) col := by
  rw [mulf_apply, mask_apply, hfu, hout]
  unfold expertT
  exact congrArg (· * _) (Finset.sum_congr rfl fun q _ => by rw [geluV_apply, hpre])

theorem out264_apply (hid : FVec Ideal S65536x512 .f32) (Wr : FVec Ideal S512x256 .f32) (Wf : FVec Ideal S512x8 .f32)
    (n : Fin 65536) (col : Fin 264) :
    concatenate S65536x264 1
        [⟨S65536x256, Host.dotGeneral dot_S65536x512_S512x256_S65536x256_1_0_0_1_n_n none hid Wr⟩,
         ⟨S65536x8, Host.dotGeneral dot_S65536x512_S512x8_S65536x8_1_0_0_1_n_n none hid Wf⟩]
        concatenates_S65536x256_S65536x8_S65536x264_d1 (ix2 n col)
      = ∑ q : Fin 512, hid (ix2 n q) * sideBySide Wr Wf q col := by
  have hcol := col.isLt
  unfold sideBySide
  by_cases hc : col.val < 256
  · rw [concatenate_pair_apply_left (s₁ := S65536x256) (s₂ := S65536x8) _ _ _ _ (ix2 n col) rfl (ix2 n (⟨col.val, hc⟩ : Fin 256))
      fun b => by match b with | ⟨0, _⟩ => rfl | ⟨1, _⟩ => rfl]
    exact (dotGeneral_plain_apply (m := 65536) (n := 256) (k := 512) none hid Wr n _).trans
      (Finset.sum_congr rfl fun q _ => by rw [dif_pos hc])
  · rw [concatenate_pair_apply_right (s₁ := S65536x256) (s₂ := S65536x8) _ _ _ _ (ix2 n col) rfl rfl (ix2 n (⟨col.val - 256, by omega⟩ : Fin 8))
      (fun b hb => by match b with | ⟨0, _⟩ => rfl | ⟨1, _⟩ => exact absurd rfl hb)
      (by show col.val - 256 + 256 = col.val; omega)]
    exact (dotGeneral_plain_apply (m := 65536) (n := 8) (k := 512) none hid Wf n _).trans
      (Finset.sum_congr rfl fun q _ => by rw [dif_neg hc])

variable (m : (ℓ : Loc nD τ sig) → Buf (Elt Ideal) ℓ) (c : Dev nD)

theorem v6_apply (hr : Ranges m c) (n : Fin 65536) :
    (res_main_v6 (F := Ideal) (launchContents m c) : IVec S65536 32) (ix1 n) = routed (aFu m c) (aOp m c) n :=
  routed_apply (aFu m c) (aOp m c) n (hr.Op n)

end Cert.ReferenceIdeal.Hand

end
-- ==== Proof.RSix.lean ====
import proofs.«403230_j21208548507705_2_alg».proof.Proof.RLib

noncomputable section

namespace Cert.ReferenceIdeal.Hand

open Idealize.ShloMosaic Idealize.ShloMosaic.TcCoe Idealize.SL.Sem Idealize.ShloMosaic.ValueIdx Idealize.ShloMosaic.StableHlo Idealize.ShloMosaic.StackMember
open Cert.ReferenceIdeal Cert.ReferenceIdeal.Gen Cert.ReferenceIdeal.Value Cert.Moe

variable (m : (ℓ : Loc nD τ sig) → Buf (Elt Ideal) ℓ) (c : Dev nD)

theorem ref_flow (hr : Ranges m c) (n : Fin 65536) (col : Fin 256) :
    mulf (Host.dotGeneral (φ₂ := .f32) dot_S65536x512_S512x256_S65536x256_1_0_0_1_n_n none (geluV (res_main_v187 (launchContents m c))) (flowWo m c))
      (maskV bcast_S65536x1_S65536x256_0_1 (res_main_v6 (launchContents m c)) 3) (ix2 n col)
      = band6 3 (aPCH m c) (aPCL m c) (aP m c) (aVal m c) (aSP m c) (aOp m c) (aFu m c) (flowEmb m c) (flowW1 m c) (flowB1 m c) (flowWo m c) n col := by
  unfold band6 expert
  refine expert_apply _ _ _ (res_main_v187 (launchContents m c)) _ _ 3 n col (fun q => ?_) (v6_apply m c hr n) _ _ _ ?_
  · exact pre_apply (by decide) row384 (fun _ _ => rfl) sum_row384 rfl rfl rfl (flowEmb m c) (flowW1 m c) (flowB1 m c) 6#32 n
      ![aPCH m c, aPCL m c, aP m c, aVal m c, aSP m c, aOp m c] rfl rfl (fun i => by fin_cases i <;> rfl)
      (fun i => by fin_cases i; exacts [hr.PCH n, hr.PCL n, hr.P n, hr.Val n, hr.SP n, hr.Op n]) q
  · exact dotGeneral_plain_apply (m := 65536) (n := 256) (k := 512) none _ _ n col

theorem ref_stack (hr : Ranges m c) (n : Fin 65536) (col : Fin 256) :
    mulf (Host.dotGeneral (φ₂ := .f32) dot_S65536x512_S512x256_S65536x256_1_0_0_1_n_n none (geluV (res_main_v237 (launchContents m c))) (stackWo m c))
      (maskV bcast_S65536x1_S65536x256_0_1 (res_main_v6 (launchContents m c)) 4) (ix2 n col)
      = band6 4 (aA m c) (aX m c) (aSP m c) (aP m c) (aVal m c) (aOp m c) (aFu m c) (stackEmb m c) (stackW1 m c) (stackB1 m c) (stackWo m c) n col := by
  unfold band6 expert
  refine expert_apply _ _ _ (res_main_v237 (launchContents m c)) _ _ 4 n col (fun q => ?_) (v6_apply m c hr n) _ _ _ ?_
  · exact pre_apply (by decide) row384 (fun _ _ => rfl) sum_row384 rfl rfl rfl (stackEmb m c) (stackW1 m c) (stackB1 m c) 6#32 n
      ![aA m c, aX m c, aSP m c, aP m c, aVal m c, aOp m c] rfl rfl (fun i => by fin_cases i <;> rfl)
      (fun i => by fin_cases i; exacts [hr.A n, hr.X n, hr.SP n, hr.P n, hr.Val n, hr.Op n]) q
  · exact dotGeneral_plain_apply (m := 65536) (n := 256) (k := 512) none _ _ n col

end Cert.ReferenceIdeal.Hand

end
-- ==== Proof.RConcat.lean ====
import proofs.«403230_j21208548507705_2_alg».proof.ReferenceIdeal
import proofs.«403230_j21208548507705_2_alg».proof.Proof.Gen.ReferenceIdeal
import Idealize.ShloMosaic.Lib.ValueIdx
import Idealize.ShloMosaic.Lib.Pipeline.Value

namespace Cert.ReferenceIdeal.Hand

open Idealize.ShloMosaic Idealize.ShloMosaic.ValueIdx Cert.ReferenceIdeal Cert.ReferenceIdeal.Gen

-- A column inside the span of piece `p`, which starts at `pre`, reads that piece at the column's offset in it.
theorem concat5_piece {α : Type} {C : ℕ} (L : List ((s : Shape) × (s.Idx → α))) (h : Shape.Concatenates (L.map (·.1)) S65536x1296 1)
    (p pre : ℕ) (hp : p < L.length) (x : (⟨2, ![65536, C]⟩ : Shape).Idx → α) (hx : L[p] = ⟨_, x⟩)
    (hpre : (((L.take p).map (·.1)).map fun s => if h : s.rank = S65536x1296.rank then s.size ((1 : Fin S65536x1296.rank).cast h.symm) else 0).sum = pre)
    (n : Fin 65536) (cc : Fin 1296) (hlo : pre ≤ cc.val) (hhi : cc.val < pre + C) :
    concatenate S65536x1296 1 L h (ix2 n cc) = x (ix2 n ⟨cc.val - pre, by omega⟩) :=
  concatenate_apply_piece 1 L h _ p hp _ x hx rfl pre hpre _ (fun b hb => by
    match b with
    | ⟨0, _⟩ => rfl
    | ⟨1, _⟩ => exact absurd rfl hb) (Nat.add_sub_of_le hlo)

end Cert.ReferenceIdeal.Hand
-- ==== Proof.RAlu.lean ====
import proofs.«403230_j21208548507705_2_alg».proof.Proof.RLib

noncomputable section

namespace Cert.ReferenceIdeal.Hand

open Idealize.ShloMosaic Idealize.ShloMosaic.TcCoe Idealize.SL.Sem Idealize.ShloMosaic.ValueIdx Idealize.ShloMosaic.StableHlo Idealize.ShloMosaic.StackMember
open Cert.ReferenceIdeal Cert.ReferenceIdeal.Gen Cert.ReferenceIdeal.Value Cert.Moe

variable (m : (ℓ : Loc nD τ sig) → Buf (Elt Ideal) ℓ) (c : Dev nD)

theorem and_one_byte (x : BitVec 32) : (x &&& 1#32).toNat < 256 := by
  rw [BitVec.toNat_and]
  exact lt_of_le_of_lt Nat.and_le_right (by decide)

theorem ref_alu (hr : Ranges m c) (n : Fin 65536) (col : Fin 264) :
    mulf (concatenate S65536x264 1
        [⟨S65536x256, Host.dotGeneral (φ₁ := .f32) (φ₂ := .f32) dot_S65536x512_S512x256_S65536x256_1_0_0_1_n_n none (res_main_v49 (F := Ideal) (launchContents m c)) (aluWr m c)⟩,
         ⟨S65536x8, Host.dotGeneral (φ₁ := .f32) (φ₂ := .f32) dot_S65536x512_S512x8_S65536x8_1_0_0_1_n_n none (res_main_v49 (F := Ideal) (launchContents m c)) (aluWf m c)⟩]
        concatenates_S65536x256_S65536x8_S65536x264_d1)
      (maskV bcast_S65536x1_S65536x264_0_1 (res_main_v6 (launchContents m c)) 0) (ix2 n col)
      = band264 0 (aA m c) (aVal m c) (aP m c) (aOp m c) (aFu m c) (aluEmb m c) (aluW1 m c) (aluB1 m c) (aluWr m c) (aluWf m c) n col := by
  unfold band264 expert
  refine expert_apply _ _ _ (res_main_v36 (launchContents m c)) _ _ 0 n col (fun q => ?_) (v6_apply m c hr n) _ _ _ (out264_apply _ _ _ n col)
  exact pre_apply (by decide) row256 (fun _ _ => rfl) sum_row256 rfl rfl rfl (aluEmb m c) (aluW1 m c) (aluB1 m c) 4#32 n
    ![aA m c, aVal m c, res_main_v8 (launchContents m c), aOp m c] rfl rfl (fun i => by fin_cases i <;> rfl)
    (fun i => by fin_cases i; exacts [hr.A n, hr.Val n, and_one_byte _, hr.Op n]) q

theorem ref_logic (hr : Ranges m c) (n : Fin 65536) (col : Fin 264) :
    mulf (concatenate S65536x264 1
        [⟨S65536x256, Host.dotGeneral (φ₁ := .f32) (φ₂ := .f32) dot_S65536x512_S512x256_S65536x256_1_0_0_1_n_n none (res_main_v99 (F := Ideal) (launchContents m c)) (logicWr m c)⟩,
         ⟨S65536x8, Host.dotGeneral (φ₁ := .f32) (φ₂ := .f32) dot_S65536x512_S512x8_S65536x8_1_0_0_1_n_n none (res_main_v99 (F := Ideal) (launchContents m c)) (logicWf m c)⟩]
        concatenates_S65536x256_S65536x8_S65536x264_d1)
      (maskV bcast_S65536x1_S65536x264_0_1 (res_main_v6 (launchContents m c)) 1) (ix2 n col)
      = band264 1 (aA m c) (aVal m c) (aP m c) (aOp m c) (aFu m c) (logicEmb m c) (logicW1 m c) (logicB1 m c) (logicWr m c) (logicWf m c) n col := by
  unfold band264 expert
  refine expert_apply _ _ _ (res_main_v86 (launchContents m c)) _ _ 1 n col (fun q => ?_) (v6_apply m c hr n) _ _ _ (out264_apply _ _ _ n col)
  exact pre_apply (by decide) row256 (fun _ _ => rfl) sum_row256 rfl rfl rfl (logicEmb m c) (logicW1 m c) (logicB1 m c) 4#32 n
    ![aA m c, aVal m c, res_main_v8 (launchContents m c), aOp m c] rfl rfl (fun i => by fin_cases i <;> rfl)
    (fun i => by fin_cases i; exacts [hr.A n, hr.Val n, and_one_byte _, hr.Op n]) q

end Cert.ReferenceIdeal.Hand

end
-- ==== Proof.RMove.lean ====
import proofs.«403230_j21208548507705_2_alg».proof.Proof.RLib

noncomputable section

namespace Cert.ReferenceIdeal.Hand

open Idealize.ShloMosaic Idealize.ShloMosaic.TcCoe Idealize.SL.Sem Idealize.ShloMosaic.ValueIdx Idealize.ShloMosaic.StableHlo Idealize.ShloMosaic.StackMember
open Cert.ReferenceIdeal Cert.ReferenceIdeal.Gen Cert.ReferenceIdeal.Value Cert.Moe

variable (m : (ℓ : Loc nD τ sig) → Buf (Elt Ideal) ℓ) (c : Dev nD)

theorem v137_apply (hr : Ranges m c) (n : Fin 65536) (q : Fin 512) :
    (res_main_v137 (F := Ideal) (launchContents m c) : FVec Ideal S65536x512 .f32) (ix2 n q)
      = preT (fuse (fun i v d => moveEmb m c (ix3 i v d)) (fun i d h => moveW1 m c (ix2 (row320 i d) h))) (fun h => moveB1 m c (ix1 h))
          ![byteOf (aA m c (ix1 n)), byteOf (aX m c (ix1 n)), byteOf (aY m c (ix1 n)), byteOf (aVal m c (ix1 n)), byteOf (aOp m c (ix1 n))] q :=
  pre_apply (by decide) row320 (fun _ _ => rfl) sum_row320 rfl rfl rfl (moveEmb m c) (moveW1 m c) (moveB1 m c) 5#32 n
    ![aA m c, aX m c, aY m c, aVal m c, aOp m c] rfl rfl (fun i => by fin_cases i <;> rfl)
    (fun i => by fin_cases i; exacts [hr.A n, hr.X n, hr.Y n, hr.Val n, hr.Op n]) q

end Cert.ReferenceIdeal.Hand

end
-- ==== Proof.RMoveFinal.lean ====
import proofs.«403230_j21208548507705_2_alg».proof.Proof.RMove

noncomputable section

namespace Cert.ReferenceIdeal.Hand

open Idealize.ShloMosaic Idealize.ShloMosaic.TcCoe Idealize.SL.Sem Idealize.ShloMosaic.ValueIdx Idealize.ShloMosaic.StableHlo Idealize.ShloMosaic.StackMember
open Cert.ReferenceIdeal Cert.ReferenceIdeal.Gen Cert.ReferenceIdeal.Value Cert.Moe

variable (m : (ℓ : Loc nD τ sig) → Buf (Elt Ideal) ℓ) (c : Dev nD)

theorem ref_move (hr : Ranges m c) (n : Fin 65536) (col : Fin 256) :
    mulf (Host.dotGeneral (φ₂ := .f32) dot_S65536x512_S512x256_S65536x256_1_0_0_1_n_n none (geluV (res_main_v137 (launchContents m c))) (moveWo m c))
      (maskV bcast_S65536x1_S65536x256_0_1 (res_main_v6 (launchContents m c)) 2) (ix2 n col)
      = bandMove (aA m c) (aX m c) (aY m c) (aVal m c) (aOp m c) (aFu m c) (moveEmb m c) (moveW1 m c) (moveB1 m c) (moveWo m c) n col := by
  unfold bandMove expert
  exact expert_apply _ _ _ (res_main_v137 (launchContents m c)) _ _ 2 n col (v137_apply m c hr n) (v6_apply m c hr n) _ _ _
    (dotGeneral_plain_apply (m := 65536) (n := 256) (k := 512) none _ _ n col)

end Cert.ReferenceIdeal.Hand

end
-- ==== Proof.RFinal.lean ====
import proofs.«403230_j21208548507705_2_alg».proof.Proof.RSix
import proofs.«403230_j21208548507705_2_alg».proof.Proof.RConcat
import proofs.«403230_j21208548507705_2_alg».proof.Proof.SpecResult
import proofs.«403230_j21208548507705_2_alg».proof.Proof.RAlu
import proofs.«403230_j21208548507705_2_alg».proof.Proof.RMoveFinal

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Value Cert.Moe

-- Five bands side by side, each given entry by entry, read at a column: the band whose span holds the column.
theorem result_of_bands {α : Type} (p0 p1 : S65536x264.Idx → α) (p2 p3 p4 : S65536x256.Idx → α)
    (b0 b1 : Fin 65536 → Fin 264 → α) (b2 b3 b4 : Fin 65536 → Fin 256 → α)
    (e0 : ∀ n col, p0 (ix2 n col) = b0 n col) (e1 : ∀ n col, p1 (ix2 n col) = b1 n col) (e2 : ∀ n col, p2 (ix2 n col) = b2 n col)
    (e3 : ∀ n col, p3 (ix2 n col) = b3 n col) (e4 : ∀ n col, p4 (ix2 n col) = b4 n col) (n : Fin 65536) (cc : Fin 1296) :
    concatenate S65536x1296 1 [⟨S65536x264, p0⟩, ⟨S65536x264, p1⟩, ⟨S65536x256, p2⟩, ⟨S65536x256, p3⟩, ⟨S65536x256, p4⟩]
        concatenates_S65536x264_S65536x264_S65536x256_S65536x256_S65536x256_S65536x1296_d1 (ix2 n cc)
      = if h0 : cc.val < 264 then b0 n ⟨cc.val, h0⟩
        else if h1 : cc.val < 528 then b1 n ⟨cc.val - 264, by omega⟩
        else if h2 : cc.val < 784 then b2 n ⟨cc.val - 528, by omega⟩
        else if h3 : cc.val < 1040 then b3 n ⟨cc.val - 784, by omega⟩
        else b4 n ⟨cc.val - 1040, by have := cc.isLt; omega⟩ := by
  have hlt := cc.isLt
  by_cases h0 : cc.val < 264
  · rw [dif_pos h0]
    exact (concat5_piece _ _ 0 0 (by simp) p0 rfl rfl n cc (Nat.zero_le _) (by omega)).trans (e0 n _)
  rw [dif_neg h0]
  by_cases h1 : cc.val < 528
  · rw [dif_pos h1]
    exact (concat5_piece _ _ 1 264 (by simp) p1 rfl rfl n cc (by omega) (by omega)).trans (e1 n _)
  rw [dif_neg h1]
  by_cases h2 : cc.val < 784
  · rw [dif_pos h2]
    exact (concat5_piece _ _ 2 528 (by simp) p2 rfl rfl n cc (by omega) (by omega)).trans (e2 n _)
  rw [dif_neg h2]
  by_cases h3 : cc.val < 1040
  · rw [dif_pos h3]
    exact (concat5_piece _ _ 3 784 (by simp) p3 rfl rfl n cc (by omega) (by omega)).trans (e3 n _)
  rw [dif_neg h3]
  exact (concat5_piece _ _ 4 1040 (by simp) p4 rfl rfl n cc (by omega) (by omega)).trans (e4 n _)

theorem ref_result (m : (ℓ : Loc nD τ sig) → Buf (Elt Ideal) ℓ) (c : Dev nD) (hr : Ranges m c) :
    (Cert.ReferenceIdeal.Value.val6 (launchContents m c) (Proc.devRef .tc main_v258) : S65536x1296.Idx → EReal)
      = fun j => Cert.Moe.result (aA m c) (aX m c) (aY m c) (aSP m c) (aP m c) (aPCH m c) (aPCL m c) (aOp m c) (aVal m c) (aFu m c) (aluEmb m c) (aluW1 m c) (aluB1 m c) (aluWr m c) (aluWf m c) (logicEmb m c) (logicW1 m c) (logicB1 m c) (logicWr m c) (logicWf m c) (moveEmb m c) (moveW1 m c) (moveB1 m c) (moveWo m c) (flowEmb m c) (flowW1 m c) (flowB1 m c) (flowWo m c) (stackEmb m c) (stackW1 m c) (stackB1 m c) (stackWo m c) (j 0) (j 1) := by
  funext j
  obtain ⟨n, cc, rfl⟩ : ∃ (n : Fin 65536) (cc : Fin 1296), j = ix2 n cc := ⟨j 0, j 1, eq_ix2 j⟩
  exact (congrFun (val6_main_v258 (F := Ideal) (launchContents m c)) _).trans
    (result_of_bands _ _ _ _ _ _ _ _ _ _ (ref_alu m c hr) (ref_logic m c hr) (ref_move m c hr) (ref_flow m c hr) (ref_stack m c hr) n cc)

end Cert.ReferenceIdeal.Hand

end
-- ==== Proof.Algebraic.lean ====
import proofs.«403230_j21208548507705_2_alg».proof.Defs
import proofs.«403230_j21208548507705_2_alg».proof.Proof.KIValue
import proofs.«403230_j21208548507705_2_alg».proof.Proof.KIValueOf
import proofs.«403230_j21208548507705_2_alg».proof.Proof.KIRun
import proofs.«403230_j21208548507705_2_alg».proof.Proof.KIPre
import proofs.«403230_j21208548507705_2_alg».proof.Proof.KIArgs
import proofs.«403230_j21208548507705_2_alg».proof.Proof.RArgs
import proofs.«403230_j21208548507705_2_alg».proof.Proof.RFinal
import proofs.«403230_j21208548507705_2_alg».proof.Proof.SpecResult
import proofs.«403230_j21208548507705_2_alg».proof.Proof.Gen.KernelIdeal
import proofs.«403230_j21208548507705_2_alg».proof.Proof.Gen.ReferenceIdeal
import proofs.«403230_j21208548507705_2_alg».proof.Proof.Gen.ReferenceIdeal.Run
import proofs.«403230_j21208548507705_2_alg».proof.Proof.Gen.Pre_finite_inputs
import Idealize.ShloMosaic.Lib.StableHlo.Run

noncomputable section

namespace Cert.Proof

open Idealize.ShloMosaic Idealize.ShloMosaic.TcCoe Idealize.SL.Sem Idealize.ShloMosaic.StableHlo

theorem inRange_congr {a b : Cert.Moe.IdxVec} (h : a = b) (hb : Cert.Moe.InRange b) : Cert.Moe.InRange a := h ▸ hb

-- Both programs end at the specification's result of the argument arrays, on which the two memories agree.
theorem algebraic : Cert.algebraic_KernelIdeal_ReferenceIdeal := by
  intro m ρ m' ρ' hpre hagree
  have hr := Cert.KernelIdeal.Hand.ranges_of_pre m hpre
  refine ⟨fun c => Cert.KernelIdeal.Hand.specArr m c, ?_, ?_⟩
  · exact (θ_run _ _ _).mono
      (fun r h c => ⟨(h c).1.trans (Cert.KernelIdeal.Hand.final m c (hr c)), (h c).2⟩)
      (Cert.KernelIdeal.Hand.value_of m ρ (Cert.KernelIdeal.Hand.dats m) (Cert.KernelIdeal.Hand.A_eq m) (Cert.KernelIdeal.Hand.run_main m ρ))
  · refine (θ_run _ _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22, h23, h24, h25, h26, h27, h28, h29, h30, h31⟩ := hagree c
    refine (Cert.ReferenceIdeal.Value.val6_main_v258 (launchContents m' c)).symm.trans ?_
    refine (Cert.ReferenceIdeal.Hand.ref_result m' c ⟨inRange_congr h0 (hr c).A, inRange_congr h1 (hr c).X, inRange_congr h2 (hr c).Y, inRange_congr h3 (hr c).SP, inRange_congr h4 (hr c).P, inRange_congr h5 (hr c).PCH, inRange_congr h6 (hr c).PCL, inRange_congr h7 (hr c).Op, inRange_congr h8 (hr c).Val⟩).trans ?_
    rw [show Cert.ReferenceIdeal.Hand.aA m' c = _ from h0,
      show Cert.ReferenceIdeal.Hand.aX m' c = _ from h1,
      show Cert.ReferenceIdeal.Hand.aY m' c = _ from h2,
      show Cert.ReferenceIdeal.Hand.aSP m' c = _ from h3,
      show Cert.ReferenceIdeal.Hand.aP m' c = _ from h4,
      show Cert.ReferenceIdeal.Hand.aPCH m' c = _ from h5,
      show Cert.ReferenceIdeal.Hand.aPCL m' c = _ from h6,
      show Cert.ReferenceIdeal.Hand.aOp m' c = _ from h7,
      show Cert.ReferenceIdeal.Hand.aVal m' c = _ from h8,
      show Cert.ReferenceIdeal.Hand.aFu m' c = _ from h9,
      show Cert.ReferenceIdeal.Hand.aluEmb m' c = _ from h10,
      show Cert.ReferenceIdeal.Hand.aluW1 m' c = _ from h11,
      show Cert.ReferenceIdeal.Hand.aluB1 m' c = _ from h12,
      show Cert.ReferenceIdeal.Hand.aluWr m' c = _ from h13,
      show Cert.ReferenceIdeal.Hand.aluWf m' c = _ from h14,
      show Cert.ReferenceIdeal.Hand.logicEmb m' c = _ from h15,
      show Cert.ReferenceIdeal.Hand.logicW1 m' c = _ from h16,
      show Cert.ReferenceIdeal.Hand.logicB1 m' c = _ from h17,
      show Cert.ReferenceIdeal.Hand.logicWr m' c = _ from h18,
      show Cert.ReferenceIdeal.Hand.logicWf m' c = _ from h19,
      show Cert.ReferenceIdeal.Hand.moveEmb m' c = _ from h20,
      show Cert.ReferenceIdeal.Hand.moveW1 m' c = _ from h21,
      show Cert.ReferenceIdeal.Hand.moveB1 m' c = _ from h22,
      show Cert.ReferenceIdeal.Hand.moveWo m' c = _ from h23,
      show Cert.ReferenceIdeal.Hand.flowEmb m' c = _ from h24,
      show Cert.ReferenceIdeal.Hand.flowW1 m' c = _ from h25,
      show Cert.ReferenceIdeal.Hand.flowB1 m' c = _ from h26,
      show Cert.ReferenceIdeal.Hand.flowWo m' c = _ from h27,
      show Cert.ReferenceIdeal.Hand.stackEmb m' c = _ from h28,
      show Cert.ReferenceIdeal.Hand.stackW1 m' c = _ from h29,
      show Cert.ReferenceIdeal.Hand.stackB1 m' c = _ from h30,
      show Cert.ReferenceIdeal.Hand.stackWo m' c = _ from h31]
    rfl

end Cert.Proof

end
-- ==== Proof.lean ====
import proofs.«403230_j21208548507705_2_alg».proof.Defs
import proofs.«403230_j21208548507705_2_alg».proof.Proof.Gen.Kernel
import proofs.«403230_j21208548507705_2_alg».proof.Proof.Gen.KernelIdeal
import proofs.«403230_j21208548507705_2_alg».proof.Proof.Gen.ReferenceIdeal
import proofs.«403230_j21208548507705_2_alg».proof.Proof.Gen.Pre_finite_inputs
import proofs.«403230_j21208548507705_2_alg».proof.Proof.Gen.ReferenceIdeal.Run
import proofs.«403230_j21208548507705_2_alg».proof.Proof.KRun
import proofs.«403230_j21208548507705_2_alg».proof.Proof.KIRun
import proofs.«403230_j21208548507705_2_alg».proof.Proof.Algebraic
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
